-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![1024, 256]⟩ (Layout.meshBlock [2, 4, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x256 : Shape := ⟨2, ![256, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel

variable [Facts]

def fn {F : FTy → Type} [FloatOps F] (main_arg0 : FVec F S256x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  main_v3
-- ==== Pre_finite_inputs_ReferenceIdeal.lean ====
abbrev S1024x256 : Shape := ⟨2, ![1024, 256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel

variable [Facts]

def fn {F : FTy → Type} [FloatOps F] (main_arg0 : FVec F S1024x256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  main_v3
-- ==== Kernel.lean ====
abbrev S256x256 : Shape := ⟨2, ![256, 256]⟩
abbrev S8x16x256 : Shape := ⟨3, ![8, 16, 256]⟩
abbrev S24 : Shape := ⟨1, ![24]⟩
abbrev S_ : Shape := ⟨0, ![]⟩
abbrev S1 : Shape := ⟨1, ![1]⟩
abbrev S1x16x256 : Shape := ⟨3, ![1, 16, 256]⟩
abbrev S16x256 : Shape := ⟨2, ![16, 256]⟩

abbrev nBuf : Space → Nat
  | .hbm => 2
  | .vmem => 5
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S8x16x256, .f32⟩
  | .local _ .vmem, ⟨3, _⟩ => ⟨S8x16x256, .f32⟩
  | .local _ .vmem, ⟨4, _⟩ => ⟨S8x16x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_6 : BitVec 32 := 16#32
  let v14 : BitVec 32 := Scalar.muli v2 c16_i32_6
  let v15 : BitVec 32 := Scalar.addi c0_i32 v14
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.xori v5 c1_i32_2
  let c4_i32_7 : BitVec 32 := 4#32
  let v16 : BitVec 32 := Scalar.muli v9 c4_i32_7
  let v17 : BitVec 32 := Scalar.addi v15 v16
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v18 : BitVec 32 := Scalar.muli v8 c1_i32_8
  let v19 : BitVec 32 := Scalar.addi v17 v18
  v19.toNat
def k0_dev2 (d0 : Dev nD) : Nat :=
  let c0_i32_11 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_10 : BitVec 32 := 16#32
  let v20 : BitVec 32 := Scalar.muli v2 c16_i32_10
  let v21 : BitVec 32 := Scalar.addi c0_i32_11 v20
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 32 := Scalar.xori v5 c2_i32_3
  let c4_i32_12 : BitVec 32 := 4#32
  let v22 : BitVec 32 := Scalar.muli v10 c4_i32_12
  let v23 : BitVec 32 := Scalar.addi v21 v22
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v24 : BitVec 32 := Scalar.muli v8 c1_i32_13
  let v25 : BitVec 32 := Scalar.addi v23 v24
  v25.toNat
def k0_dev3 (d0 : Dev nD) : Nat :=
  let c0_i32_16 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_15 : BitVec 32 := 16#32
  let v26 : BitVec 32 := Scalar.muli v11 c16_i32_15
  let v27 : BitVec 32 := Scalar.addi c0_i32_16 v26
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_17 : BitVec 32 := 4#32
  let v28 : BitVec 32 := Scalar.muli v5 c4_i32_17
  let v29 : BitVec 32 := Scalar.addi v27 v28
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_18 : BitVec 32 := 1#32
  let v30 : BitVec 32 := Scalar.muli v8 c1_i32_18
  let v31 : BitVec 32 := Scalar.addi v29 v30
  v31.toNat
def k0_off1 (d0 : Dev nD) (c0_i32_19 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c128_i32 : BitVec 32 := 128#32
  let v12 : BitVec 32 := Scalar.muli v2 c128_i32
  let v32 : BitVec 32 := Scalar.addi v12 c0_i32_19
  let c0_i32_29 : BitVec 32 := 0#32
  ![v32.toNat, 0]
def k0_dev4 (d0 : Dev nD) : Nat :=
  let c0_i32_24 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_23 : BitVec 32 := 16#32
  let v33 : BitVec 32 := Scalar.muli v2 c16_i32_23
  let v34 : BitVec 32 := Scalar.addi c0_i32_24 v33
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.xori v5 c1_i32_2
  let c4_i32_25 : BitVec 32 := 4#32
  let v35 : BitVec 32 := Scalar.muli v9 c4_i32_25
  let v36 : BitVec 32 := Scalar.addi v34 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v37 : BitVec 32 := Scalar.muli v8 c1_i32_26
  let v38 : BitVec 32 := Scalar.addi v36 v37
  v38.toNat
def k0_dev5 (d0 : Dev nD) : Nat :=
  let c0_i32_35 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_34 : BitVec 32 := 16#32
  let v47 : BitVec 32 := Scalar.muli v2 c16_i32_34
  let v48 : BitVec 32 := Scalar.addi c0_i32_35 v47
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.xori v5 c1_i32_2
  let c4_i32_36 : BitVec 32 := 4#32
  let v49 : BitVec 32 := Scalar.muli v9 c4_i32_36
  let v50 : BitVec 32 := Scalar.addi v48 v49
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v51 : BitVec 32 := Scalar.muli v8 c1_i32_37
  let v52 : BitVec 32 := Scalar.addi v50 v51
  v52.toNat
def k0_dev6 (d0 : Dev nD) : Nat :=
  let c0_i32_45 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_44 : BitVec 32 := 16#32
  let v61 : BitVec 32 := Scalar.muli v2 c16_i32_44
  let v62 : BitVec 32 := Scalar.addi c0_i32_45 v61
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.xori v5 c1_i32_2
  let c4_i32_46 : BitVec 32 := 4#32
  let v63 : BitVec 32 := Scalar.muli v9 c4_i32_46
  let v64 : BitVec 32 := Scalar.addi v62 v63
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_47 : BitVec 32 := 1#32
  let v65 : BitVec 32 := Scalar.muli v8 c1_i32_47
  let v66 : BitVec 32 := Scalar.addi v64 v65
  v66.toNat
def k0_dev7 (d0 : Dev nD) : Nat :=
  let c0_i32_55 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_54 : BitVec 32 := 16#32
  let v75 : BitVec 32 := Scalar.muli v2 c16_i32_54
  let v76 : BitVec 32 := Scalar.addi c0_i32_55 v75
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.xori v5 c1_i32_2
  let c4_i32_56 : BitVec 32 := 4#32
  let v77 : BitVec 32 := Scalar.muli v9 c4_i32_56
  let v78 : BitVec 32 := Scalar.addi v76 v77
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_57 : BitVec 32 := 1#32
  let v79 : BitVec 32 := Scalar.muli v8 c1_i32_57
  let v80 : BitVec 32 := Scalar.addi v78 v79
  v80.toNat
def k0_dev8 (d0 : Dev nD) : Nat :=
  let c0_i32_65 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_64 : BitVec 32 := 16#32
  let v89 : BitVec 32 := Scalar.muli v2 c16_i32_64
  let v90 : BitVec 32 := Scalar.addi c0_i32_65 v89
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.xori v5 c1_i32_2
  let c4_i32_66 : BitVec 32 := 4#32
  let v91 : BitVec 32 := Scalar.muli v9 c4_i32_66
  let v92 : BitVec 32 := Scalar.addi v90 v91
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v93 : BitVec 32 := Scalar.muli v8 c1_i32_67
  let v94 : BitVec 32 := Scalar.addi v92 v93
  v94.toNat
def k0_dev9 (d0 : Dev nD) : Nat :=
  let c0_i32_74 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_73 : BitVec 32 := 16#32
  let v103 : BitVec 32 := Scalar.muli v2 c16_i32_73
  let v104 : BitVec 32 := Scalar.addi c0_i32_74 v103
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.xori v5 c1_i32_2
  let c4_i32_75 : BitVec 32 := 4#32
  let v105 : BitVec 32 := Scalar.muli v9 c4_i32_75
  let v106 : BitVec 32 := Scalar.addi v104 v105
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_76 : BitVec 32 := 1#32
  let v107 : BitVec 32 := Scalar.muli v8 c1_i32_76
  let v108 : BitVec 32 := Scalar.addi v106 v107
  v108.toNat
def k0_dev10 (d0 : Dev nD) : Nat :=
  let c0_i32_83 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_82 : BitVec 32 := 16#32
  let v117 : BitVec 32 := Scalar.muli v2 c16_i32_82
  let v118 : BitVec 32 := Scalar.addi c0_i32_83 v117
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.xori v5 c1_i32_2
  let c4_i32_84 : BitVec 32 := 4#32
  let v119 : BitVec 32 := Scalar.muli v9 c4_i32_84
  let v120 : BitVec 32 := Scalar.addi v118 v119
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_85 : BitVec 32 := 1#32
  let v121 : BitVec 32 := Scalar.muli v8 c1_i32_85
  let v122 : BitVec 32 := Scalar.addi v120 v121
  v122.toNat
def k0_dev11 (d0 : Dev nD) : Nat :=
  let c0_i32_92 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_91 : BitVec 32 := 16#32
  let v131 : BitVec 32 := Scalar.muli v2 c16_i32_91
  let v132 : BitVec 32 := Scalar.addi c0_i32_92 v131
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.xori v5 c1_i32_2
  let c4_i32_93 : BitVec 32 := 4#32
  let v133 : BitVec 32 := Scalar.muli v9 c4_i32_93
  let v134 : BitVec 32 := Scalar.addi v132 v133
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_94 : BitVec 32 := 1#32
  let v135 : BitVec 32 := Scalar.muli v8 c1_i32_94
  let v136 : BitVec 32 := Scalar.addi v134 v135
  v136.toNat
def k0_off2 (d0 : Dev nD) (c0_i32_115 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c128_i32 : BitVec 32 := 128#32
  let v12 : BitVec 32 := Scalar.muli v2 c128_i32
  let v160 : BitVec 32 := Scalar.addi v12 c0_i32_115
  let v161 : Index := Scalar.indexCast v160
  let c0 : Index := 0#32
  ![v161.toNat, 0]
def k0_dev12 (d0 : Dev nD) : Nat :=
  let c0_i32_126 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_125 : BitVec 32 := 16#32
  let v170 : BitVec 32 := Scalar.muli v2 c16_i32_125
  let v171 : BitVec 32 := Scalar.addi c0_i32_126 v170
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 32 := Scalar.xori v5 c2_i32_3
  let c4_i32_127 : BitVec 32 := 4#32
  let v172 : BitVec 32 := Scalar.muli v10 c4_i32_127
  let v173 : BitVec 32 := Scalar.addi v171 v172
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_128 : BitVec 32 := 1#32
  let v174 : BitVec 32 := Scalar.muli v8 c1_i32_128
  let v175 : BitVec 32 := Scalar.addi v173 v174
  v175.toNat
def k0_dev13 (d0 : Dev nD) : Nat :=
  let c0_i32_161 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_160 : BitVec 32 := 16#32
  let v210 : BitVec 32 := Scalar.muli v2 c16_i32_160
  let v211 : BitVec 32 := Scalar.addi c0_i32_161 v210
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 32 := Scalar.xori v5 c2_i32_3
  let c4_i32_162 : BitVec 32 := 4#32
  let v212 : BitVec 32 := Scalar.muli v10 c4_i32_162
  let v213 : BitVec 32 := Scalar.addi v211 v212
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v214 : BitVec 32 := Scalar.muli v8 c1_i32_163
  let v215 : BitVec 32 := Scalar.addi v213 v214
  v215.toNat
def k0_dev14 (d0 : Dev nD) : Nat :=
  let c0_i32_196 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_195 : BitVec 32 := 16#32
  let v250 : BitVec 32 := Scalar.muli v2 c16_i32_195
  let v251 : BitVec 32 := Scalar.addi c0_i32_196 v250
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 32 := Scalar.xori v5 c2_i32_3
  let c4_i32_197 : BitVec 32 := 4#32
  let v252 : BitVec 32 := Scalar.muli v10 c4_i32_197
  let v253 : BitVec 32 := Scalar.addi v251 v252
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_198 : BitVec 32 := 1#32
  let v254 : BitVec 32 := Scalar.muli v8 c1_i32_198
  let v255 : BitVec 32 := Scalar.addi v253 v254
  v255.toNat
def k0_dev15 (d0 : Dev nD) : Nat :=
  let c0_i32_231 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_230 : BitVec 32 := 16#32
  let v290 : BitVec 32 := Scalar.muli v2 c16_i32_230
  let v291 : BitVec 32 := Scalar.addi c0_i32_231 v290
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 32 := Scalar.xori v5 c2_i32_3
  let c4_i32_232 : BitVec 32 := 4#32
  let v292 : BitVec 32 := Scalar.muli v10 c4_i32_232
  let v293 : BitVec 32 := Scalar.addi v291 v292
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_233 : BitVec 32 := 1#32
  let v294 : BitVec 32 := Scalar.muli v8 c1_i32_233
  let v295 : BitVec 32 := Scalar.addi v293 v294
  v295.toNat
def k0_dev16 (d0 : Dev nD) : Nat :=
  let c0_i32_266 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_265 : BitVec 32 := 16#32
  let v330 : BitVec 32 := Scalar.muli v2 c16_i32_265
  let v331 : BitVec 32 := Scalar.addi c0_i32_266 v330
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 32 := Scalar.xori v5 c2_i32_3
  let c4_i32_267 : BitVec 32 := 4#32
  let v332 : BitVec 32 := Scalar.muli v10 c4_i32_267
  let v333 : BitVec 32 := Scalar.addi v331 v332
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_268 : BitVec 32 := 1#32
  let v334 : BitVec 32 := Scalar.muli v8 c1_i32_268
  let v335 : BitVec 32 := Scalar.addi v333 v334
  v335.toNat
def k0_dev17 (d0 : Dev nD) : Nat :=
  let c0_i32_301 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_300 : BitVec 32 := 16#32
  let v370 : BitVec 32 := Scalar.muli v2 c16_i32_300
  let v371 : BitVec 32 := Scalar.addi c0_i32_301 v370
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 32 := Scalar.xori v5 c2_i32_3
  let c4_i32_302 : BitVec 32 := 4#32
  let v372 : BitVec 32 := Scalar.muli v10 c4_i32_302
  let v373 : BitVec 32 := Scalar.addi v371 v372
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_303 : BitVec 32 := 1#32
  let v374 : BitVec 32 := Scalar.muli v8 c1_i32_303
  let v375 : BitVec 32 := Scalar.addi v373 v374
  v375.toNat
def k0_dev18 (d0 : Dev nD) : Nat :=
  let c0_i32_336 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_335 : BitVec 32 := 16#32
  let v410 : BitVec 32 := Scalar.muli v2 c16_i32_335
  let v411 : BitVec 32 := Scalar.addi c0_i32_336 v410
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 32 := Scalar.xori v5 c2_i32_3
  let c4_i32_337 : BitVec 32 := 4#32
  let v412 : BitVec 32 := Scalar.muli v10 c4_i32_337
  let v413 : BitVec 32 := Scalar.addi v411 v412
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_338 : BitVec 32 := 1#32
  let v414 : BitVec 32 := Scalar.muli v8 c1_i32_338
  let v415 : BitVec 32 := Scalar.addi v413 v414
  v415.toNat
def k0_dev19 (d0 : Dev nD) : Nat :=
  let c0_i32_371 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_370 : BitVec 32 := 16#32
  let v450 : BitVec 32 := Scalar.muli v2 c16_i32_370
  let v451 : BitVec 32 := Scalar.addi c0_i32_371 v450
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 32 := Scalar.xori v5 c2_i32_3
  let c4_i32_372 : BitVec 32 := 4#32
  let v452 : BitVec 32 := Scalar.muli v10 c4_i32_372
  let v453 : BitVec 32 := Scalar.addi v451 v452
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_373 : BitVec 32 := 1#32
  let v454 : BitVec 32 := Scalar.muli v8 c1_i32_373
  let v455 : BitVec 32 := Scalar.addi v453 v454
  v455.toNat
def k0_dev20 (d0 : Dev nD) : Nat :=
  let c0_i32_412 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_411 : BitVec 32 := 16#32
  let v492 : BitVec 32 := Scalar.muli v11 c16_i32_411
  let v493 : BitVec 32 := Scalar.addi c0_i32_412 v492
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_413 : BitVec 32 := 4#32
  let v494 : BitVec 32 := Scalar.muli v5 c4_i32_413
  let v495 : BitVec 32 := Scalar.addi v493 v494
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_414 : BitVec 32 := 1#32
  let v496 : BitVec 32 := Scalar.muli v8 c1_i32_414
  let v497 : BitVec 32 := Scalar.addi v495 v496
  v497.toNat
def k0_dev21 (d0 : Dev nD) : Nat :=
  let c0_i32_450 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_449 : BitVec 32 := 16#32
  let v532 : BitVec 32 := Scalar.muli v11 c16_i32_449
  let v533 : BitVec 32 := Scalar.addi c0_i32_450 v532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_451 : BitVec 32 := 4#32
  let v534 : BitVec 32 := Scalar.muli v5 c4_i32_451
  let v535 : BitVec 32 := Scalar.addi v533 v534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_452 : BitVec 32 := 1#32
  let v536 : BitVec 32 := Scalar.muli v8 c1_i32_452
  let v537 : BitVec 32 := Scalar.addi v535 v536
  v537.toNat
def k0_dev22 (d0 : Dev nD) : Nat :=
  let c0_i32_488 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_487 : BitVec 32 := 16#32
  let v572 : BitVec 32 := Scalar.muli v11 c16_i32_487
  let v573 : BitVec 32 := Scalar.addi c0_i32_488 v572
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_489 : BitVec 32 := 4#32
  let v574 : BitVec 32 := Scalar.muli v5 c4_i32_489
  let v575 : BitVec 32 := Scalar.addi v573 v574
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_490 : BitVec 32 := 1#32
  let v576 : BitVec 32 := Scalar.muli v8 c1_i32_490
  let v577 : BitVec 32 := Scalar.addi v575 v576
  v577.toNat
def k0_dev23 (d0 : Dev nD) : Nat :=
  let c0_i32_526 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_525 : BitVec 32 := 16#32
  let v612 : BitVec 32 := Scalar.muli v11 c16_i32_525
  let v613 : BitVec 32 := Scalar.addi c0_i32_526 v612
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_527 : BitVec 32 := 4#32
  let v614 : BitVec 32 := Scalar.muli v5 c4_i32_527
  let v615 : BitVec 32 := Scalar.addi v613 v614
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_528 : BitVec 32 := 1#32
  let v616 : BitVec 32 := Scalar.muli v8 c1_i32_528
  let v617 : BitVec 32 := Scalar.addi v615 v616
  v617.toNat
def k0_dev24 (d0 : Dev nD) : Nat :=
  let c0_i32_564 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_563 : BitVec 32 := 16#32
  let v652 : BitVec 32 := Scalar.muli v11 c16_i32_563
  let v653 : BitVec 32 := Scalar.addi c0_i32_564 v652
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_565 : BitVec 32 := 4#32
  let v654 : BitVec 32 := Scalar.muli v5 c4_i32_565
  let v655 : BitVec 32 := Scalar.addi v653 v654
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_566 : BitVec 32 := 1#32
  let v656 : BitVec 32 := Scalar.muli v8 c1_i32_566
  let v657 : BitVec 32 := Scalar.addi v655 v656
  v657.toNat
def k0_dev25 (d0 : Dev nD) : Nat :=
  let c0_i32_602 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_601 : BitVec 32 := 16#32
  let v692 : BitVec 32 := Scalar.muli v11 c16_i32_601
  let v693 : BitVec 32 := Scalar.addi c0_i32_602 v692
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_603 : BitVec 32 := 4#32
  let v694 : BitVec 32 := Scalar.muli v5 c4_i32_603
  let v695 : BitVec 32 := Scalar.addi v693 v694
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_604 : BitVec 32 := 1#32
  let v696 : BitVec 32 := Scalar.muli v8 c1_i32_604
  let v697 : BitVec 32 := Scalar.addi v695 v696
  v697.toNat
def k0_dev26 (d0 : Dev nD) : Nat :=
  let c0_i32_640 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_639 : BitVec 32 := 16#32
  let v732 : BitVec 32 := Scalar.muli v11 c16_i32_639
  let v733 : BitVec 32 := Scalar.addi c0_i32_640 v732
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_641 : BitVec 32 := 4#32
  let v734 : BitVec 32 := Scalar.muli v5 c4_i32_641
  let v735 : BitVec 32 := Scalar.addi v733 v734
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_642 : BitVec 32 := 1#32
  let v736 : BitVec 32 := Scalar.muli v8 c1_i32_642
  let v737 : BitVec 32 := Scalar.addi v735 v736
  v737.toNat
def k0_dev27 (d0 : Dev nD) : Nat :=
  let c0_i32_678 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_677 : BitVec 32 := 16#32
  let v772 : BitVec 32 := Scalar.muli v11 c16_i32_677
  let v773 : BitVec 32 := Scalar.addi c0_i32_678 v772
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_679 : BitVec 32 := 4#32
  let v774 : BitVec 32 := Scalar.muli v5 c4_i32_679
  let v775 : BitVec 32 := Scalar.addi v773 v774
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_680 : BitVec 32 := 1#32
  let v776 : BitVec 32 := Scalar.muli v8 c1_i32_680
  let v777 : BitVec 32 := Scalar.addi v775 v776
  v777.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_3 : (3#32 : BitVec 32).msb = false
  inb_S24_S1_0 : ∀ a, (![0] : Fin 1 → Nat) a + S1.size a ≤ S24.size a
  squeezes_S1_S_ : S1.Squeezes S_
  inb_S8x16x256_S1x16x256_0_0_0 : ∀ a, (![0, 0, 0] : Fin 3 → Nat) a + S1x16x256.size a ≤ S8x16x256.size a
  squeezes_S1x16x256_S16x256 : S1x16x256.Squeezes S16x256
  inb_S24_S1_1 : ∀ a, (![1] : Fin 1 → Nat) a + S1.size a ≤ S24.size a
  inb_S8x16x256_S1x16x256_1_0_0 : ∀ a, (![1, 0, 0] : Fin 3 → Nat) a + S1x16x256.size a ≤ S8x16x256.size a
  inb_S24_S1_2 : ∀ a, (![2] : Fin 1 → Nat) a + S1.size a ≤ S24.size a
  inb_S8x16x256_S1x16x256_2_0_0 : ∀ a, (![2, 0, 0] : Fin 3 → Nat) a + S1x16x256.size a ≤ S8x16x256.size a
  inb_S24_S1_3 : ∀ a, (![3] : Fin 1 → Nat) a + S1.size a ≤ S24.size a
  inb_S8x16x256_S1x16x256_3_0_0 : ∀ a, (![3, 0, 0] : Fin 3 → Nat) a + S1x16x256.size a ≤ S8x16x256.size a
  inb_S24_S1_4 : ∀ a, (![4] : Fin 1 → Nat) a + S1.size a ≤ S24.size a
  inb_S8x16x256_S1x16x256_4_0_0 : ∀ a, (![4, 0, 0] : Fin 3 → Nat) a + S1x16x256.size a ≤ S8x16x256.size a
  inb_S24_S1_5 : ∀ a, (![5] : Fin 1 → Nat) a + S1.size a ≤ S24.size a
  inb_S8x16x256_S1x16x256_5_0_0 : ∀ a, (![5, 0, 0] : Fin 3 → Nat) a + S1x16x256.size a ≤ S8x16x256.size a
  inb_S24_S1_6 : ∀ a, (![6] : Fin 1 → Nat) a + S1.size a ≤ S24.size a
  inb_S8x16x256_S1x16x256_6_0_0 : ∀ a, (![6, 0, 0] : Fin 3 → Nat) a + S1x16x256.size a ≤ S8x16x256.size a
  inb_S24_S1_7 : ∀ a, (![7] : Fin 1 → Nat) a + S1.size a ≤ S24.size a
  inb_S8x16x256_S1x16x256_7_0_0 : ∀ a, (![7, 0, 0] : Fin 3 → Nat) a + S1x16x256.size a ≤ S8x16x256.size a
  h_S16x256 : 0 < S16x256.numel
  shapeCasts_S16x256_S16x256 : S16x256.ShapeCasts S16x256
  h_S1x16x256 : 0 < S1x16x256.numel
  shapeCasts_S1x16x256_S16x256 : S1x16x256.ShapeCasts S16x256
  shapeCasts_S16x256_S1x16x256 : S16x256.ShapeCasts S1x16x256
  inb_S24_S1_8 : ∀ a, (![8] : Fin 1 → Nat) a + S1.size a ≤ S24.size a
  inb_S24_S1_9 : ∀ a, (![9] : Fin 1 → Nat) a + S1.size a ≤ S24.size a
  inb_S24_S1_10 : ∀ a, (![10] : Fin 1 → Nat) a + S1.size a ≤ S24.size a
  inb_S24_S1_11 : ∀ a, (![11] : Fin 1 → Nat) a + S1.size a ≤ S24.size a
  inb_S24_S1_12 : ∀ a, (![12] : Fin 1 → Nat) a + S1.size a ≤ S24.size a
  inb_S24_S1_13 : ∀ a, (![13] : Fin 1 → Nat) a + S1.size a ≤ S24.size a
  inb_S24_S1_14 : ∀ a, (![14] : Fin 1 → Nat) a + S1.size a ≤ S24.size a
  inb_S24_S1_15 : ∀ a, (![15] : Fin 1 → Nat) a + S1.size a ≤ S24.size a
  inb_S24_S1_16 : ∀ a, (![16] : Fin 1 → Nat) a + S1.size a ≤ S24.size a
  inb_S24_S1_17 : ∀ a, (![17] : Fin 1 → Nat) a + S1.size a ≤ S24.size a
  inb_S24_S1_18 : ∀ a, (![18] : Fin 1 → Nat) a + S1.size a ≤ S24.size a
  inb_S24_S1_19 : ∀ a, (![19] : Fin 1 → Nat) a + S1.size a ≤ S24.size a
  inb_S24_S1_20 : ∀ a, (![20] : Fin 1 → Nat) a + S1.size a ≤ S24.size a
  inb_S24_S1_21 : ∀ a, (![21] : Fin 1 → Nat) a + S1.size a ≤ S24.size a
  inb_S24_S1_22 : ∀ a, (![22] : Fin 1 → Nat) a + S1.size a ≤ S24.size a
  inb_S24_S1_23 : ∀ a, (![23] : Fin 1 → Nat) a + S1.size a ≤ S24.size a
  hcc0_scratch3 : 2 + S24.numel ≤ 50
  hcc0_scratch4 : 26 + S24.numel ≤ 50
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ (r : Fin 8), ∀ a, (k0_off1 d0 (BitVec.ofNat 32 (16 * r.val))) a + S16x256.size a ≤ S256x256.size a
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_off2_inb : ∀ d0 : Dev nD, ∀ (r : Fin 8), ∀ a, (k0_off2 d0 (BitVec.ofNat 32 (16 * r.val))) a + S16x256.size a ≤ S256x256.size a
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  hstage0_0 : ∀ j, (stage0_0 j).IsWhole
  hstage0_1 : ∀ j, (stage0_1 j).IsWhole

variable [Facts₀]

abbrev cc0_scratch3 : DmaSems sig S24 := SemArray.consecutive 2 S24 hcc0_scratch3
abbrev cc0_scratch4 : DmaSems sig S24 := SemArray.consecutive 26 S24 hcc0_scratch4

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x256 : Shape := ⟨2, ![1024, 256]⟩
abbrev S4x256x256 : Shape := ⟨3, ![4, 256, 256]⟩
abbrev S_ : Shape := ⟨0, ![]⟩
abbrev S256x256 : Shape := ⟨2, ![256, 256]⟩

abbrev nBuf : Space → Nat
  | .hbm => 4
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S4x256x256, .f32⟩
  | .hbm, ⟨2, _⟩ => ⟨S_, .f32⟩
  | .hbm, ⟨3, _⟩ => ⟨S256x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S1024x256_S4x256x256 : S1024x256.ShapeCasts S4x256x256
  reducesTo_S4x256x256_S256x256_d0 : S4x256x256.ReducesTo [0] S256x256
  h_S_ : 0 < S_.numel

variable [Facts₀]

class Facts : Prop extends Facts₀ where

variable [Facts]
-- ==== Proof.Base.lean ====
import proofs.«900728_g7700000000000729_dist_ar_v7x_xyz2x4x4_y_m256_n256_f32_1_alg».proof.Proof.Gen.KernelIdeal

namespace Cert.KernelIdeal.Mesh

open Cert.KernelIdeal Idealize.ShloMosaic

theorem peer_lt : ∀ (p : Fin 3) (c : Dev nD), c.val ^^^ (4 * 2 ^ p.val) < nD := by decide

def peer (p : Fin 3) (c : Dev nD) : Dev nD := ⟨c.val ^^^ (4 * 2 ^ p.val), peer_lt p c⟩

end Cert.KernelIdeal.Mesh
-- ==== Proof.Proto.lean ====
import proofs.«900728_g7700000000000729_dist_ar_v7x_xyz2x4x4_y_m256_n256_f32_1_alg».proof.Proof.Base
import proofs.«900728_g7700000000000729_dist_ar_v7x_xyz2x4x4_y_m256_n256_f32_1_alg».proof.Proof.Gen.KernelIdeal.Skeleton
import proofs.«900728_g7700000000000729_dist_ar_v7x_xyz2x4x4_y_m256_n256_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

abbrev xM : Memref sig .tc .vmem S256x256 .f32 := Memref.whole cc0_stg0_0
abbrev oM : Memref sig .tc .vmem S256x256 .f32 := Memref.whole cc0_stg1_0
abbrev r1M : Memref sig .tc .vmem S8x16x256 .f32 := Memref.whole cc0_scratch0
abbrev r2M : Memref sig .tc .vmem S8x16x256 .f32 := Memref.whole cc0_scratch1
abbrev sbM : Memref sig .tc .vmem S8x16x256 .f32 := Memref.whole cc0_scratch2

abbrev rowRect (c : Dev nD) (k : Fin 8) : Rect S256x256 :=
  Rect.unit (s := S256x256) (k0_off1 c (BitVec.ofNat 32 (16 * k.val))) S16x256.size (Gen.k0_off1_inb c k)

abbrev rowRect2 (c : Dev nD) (k : Fin 8) : Rect S256x256 :=
  Rect.unit (s := S256x256) (k0_off2 c (BitVec.ofNat 32 (16 * k.val))) S16x256.size (Gen.k0_off2_inb c k)

theorem rowRect_eq (c : Dev nD) (k : Fin 8) : rowRect c k = rowRect2 c k :=
  Rect.unit_congr ((Gen.k0_off1_eq c k).trans (Gen.k0_off2_eq c k).symm) _ _

theorem slot_inb : ∀ (k : Fin 8), ∀ a, (![k.val, 0, 0] : Fin 3 → Nat) a + S1x16x256.size a ≤ S8x16x256.size a := by decide

abbrev slotRect (k : Fin 8) : Rect S8x16x256 := Rect.unit (s := S8x16x256) ![k.val, 0, 0] S1x16x256.size (slot_inb k)

abbrev xSl (c : Dev nD) (k : Fin 8) : Memref sig .tc .vmem S16x256 .f32 := xM.slice (rowRect c k) (fun _ => rfl)
abbrev oSl (c : Dev nD) (k : Fin 8) : Memref sig .tc .vmem S16x256 .f32 := oM.slice (rowRect c k) (fun _ => rfl)
abbrev r1Sl (k : Fin 8) : Memref sig .tc .vmem S16x256 .f32 := (r1M.slice (slotRect k) (fun _ => rfl)).squeeze S16x256 Gen.squeezes_S1x16x256_S16x256
abbrev r2Sl (k : Fin 8) : Memref sig .tc .vmem S16x256 .f32 := (r2M.slice (slotRect k) (fun _ => rfl)).squeeze S16x256 Gen.squeezes_S1x16x256_S16x256
abbrev sbSl (k : Fin 8) : Memref sig .tc .vmem S16x256 .f32 := (sbM.slice (slotRect k) (fun _ => rfl)).squeeze S16x256 Gen.squeezes_S1x16x256_S16x256

abbrev barS : Sem sig := (SemArray.scalar (sig.barrier 0 rfl) : Sems sig S_).sem

theorem sem_inb : ∀ (j : Fin 24), ∀ a, (![j.val] : Fin 1 → Nat) a + S1.size a ≤ S24.size a := by decide

abbrev sendSem (j : Fin 24) : DmaSem sig := ((cc0_scratch3.slice (Rect.unit (s := S24) ![j.val] S1.size (sem_inb j))).squeeze S_ Gen.squeezes_S1_S_).sem
abbrev recvSem (j : Fin 24) : DmaSem sig := ((cc0_scratch4.slice (Rect.unit (s := S24) ![j.val] S1.size (sem_inb j))).squeeze S_ Gen.squeezes_S1_S_).sem

abbrev barCell (c : Dev nD) : GSem nD τ sig := ((c : Thread nD τ), .reg barS)
abbrev sendCell (c : Dev nD) (j : Fin 24) : GSem nD τ sig := ((c : Thread nD τ), .dma (sendSem j))
abbrev recvCell (c : Dev nD) (j : Fin 24) : GSem nD τ sig := ((c : Thread nD τ), .dma (recvSem j))

def semKind : SemLoc sig → Option (Bool × Fin 24)
  | .reg _ => none
  | .dma q => if h : 2 ≤ q.val ∧ q.val < 26 then some (false, ⟨q.val - 2, by omega⟩)
      else if h' : 26 ≤ q.val ∧ q.val < 50 then some (true, ⟨q.val - 26, by omega⟩) else none

theorem semKind_send : ∀ j : Fin 24, semKind (.dma (sendSem j)) = some (false, j) := by decide
theorem semKind_recv : ∀ j : Fin 24, semKind (.dma (recvSem j)) = some (true, j) := by decide
theorem semKind_bar : semKind (.reg barS) = none := rfl

abbrev phaseOf (j : Fin 24) : Fin 3 := ⟨j.val / 8, by omega⟩
abbrev chunkOf (j : Fin 24) : Fin 8 := ⟨j.val % 8, by omega⟩
abbrev jOf (p : Fin 3) (k : Fin 8) : Fin 24 := ⟨8 * p.val + k.val, by omega⟩

abbrev N : ℕ := (r1Sl 0 : Memref sig .tc .vmem S16x256 .f32).view.dmaCredit
theorem N_pos : 0 < N := View.dmaCredit_pos _ (by decide)

def xsC (c : Dev nD) : (cc0_stg0_0 : Ref sig .tc).ty.Contents (Elt F) :=
  (win0_0.blk Gen.t0_0).view.read (Elt F) (m ((c : Thread nD τ).loc main_arg0))

def sbPay (x : Vec F S16x256 .f32) (r : Vec F S1x16x256 .f32) : FVec F S1x16x256 .f32 :=
  shapeCast S1x16x256 (addf (shapeCast S16x256 x Gen.shapeCasts_S16x256_S16x256 : FVec F S16x256 .f32)
    (shapeCast S16x256 r Gen.shapeCasts_S1x16x256_S16x256 : FVec F S16x256 .f32) : FVec F S16x256 .f32) Gen.shapeCasts_S16x256_S1x16x256

def outPay (a b : Vec F S1x16x256 .f32) : FVec F S16x256 .f32 :=
  addf (shapeCast S16x256 a Gen.shapeCasts_S1x16x256_S16x256 : FVec F S16x256 .f32) (shapeCast S16x256 b Gen.shapeCasts_S1x16x256_S16x256 : FVec F S16x256 .f32)

def r1C (c : Dev nD) (k : Fin 8) : (cc0_scratch0 : Ref sig .tc).ty.Contents (Elt F) :=
  (r1Sl k).view.write (Elt F) (m ((c : Thread nD τ).loc cc0_scratch0)) ((xSl (peer 0 c) k).view.read (Elt F) (xsC m (peer 0 c))) Finset.univ

def xL (c : Dev nD) (k : Fin 8) : Vec F S16x256 .f32 := xM.view.readAt (Elt F) (rowRect2 c k).toLoadRect (xsC m c)
def r1L (c : Dev nD) (k : Fin 8) : Vec F S1x16x256 .f32 := r1M.view.readAt (Elt F) (slotRect k).toLoadRect (r1C m c k)

def sbC (c : Dev nD) (k : Fin 8) : (cc0_scratch2 : Ref sig .tc).ty.Contents (Elt F) :=
  (sbM.access (slotRect k)).write (Elt F) (m ((c : Thread nD τ).loc cc0_scratch2)) (sbPay (xL m c k) (r1L m c k)) Finset.univ

def r2C (c : Dev nD) (k : Fin 8) : (cc0_scratch1 : Ref sig .tc).ty.Contents (Elt F) :=
  (r2Sl k).view.write (Elt F) (m ((c : Thread nD τ).loc cc0_scratch1)) ((sbSl k).view.read (Elt F) (sbC m (peer 1 c) k)) Finset.univ
def sbL (c : Dev nD) (k : Fin 8) : Vec F S1x16x256 .f32 := sbM.view.readAt (Elt F) (slotRect k).toLoadRect (sbC m c k)
def r2L (c : Dev nD) (k : Fin 8) : Vec F S1x16x256 .f32 := r2M.view.readAt (Elt F) (slotRect k).toLoadRect (r2C m c k)

def oVal (c : Dev nD) (k : Fin 8) : FVec F S16x256 .f32 := outPay (sbL m c k) (r2L m c k)
def oC (c : Dev nD) (k : Fin 8) : (cc0_stg1_0 : Ref sig .tc).ty.Contents (Elt F) :=
  (oM.access (rowRect2 c k)).write (Elt F) (m ((c : Thread nD τ).loc cc0_stg1_0)) (oVal m c k) Finset.univ

def oC' (c : Dev nD) (k : Fin 8) : (cc0_stg1_0 : Ref sig .tc).ty.Contents (Elt F) :=
  (oSl (peer 2 c) k).view.write (Elt F) (m ((c : Thread nD τ).loc cc0_stg1_0)) ((oSl (peer 2 c) k).view.read (Elt F) (oC m (peer 2 c) k)) Finset.univ

abbrev sl {sp : Space} {s : Shape} {e : EltTy} (mr : Memref sig .tc sp s e) (c : Dev nD) (f : Buf (Elt F) (mr.view.loc (c : Thread nD τ))) : sProp 𝕄 :=
  mr.view.loc (c : Thread nD τ) ↦[mr.view.set]{fullShare} f

abbrev srcSl (p : Fin 3) (c : Dev nD) (k : Fin 8) : Memref sig .tc .vmem S16x256 .f32 :=
  match p with | ⟨0, _⟩ => xSl c k | ⟨1, _⟩ => sbSl k | ⟨_ + 2, _⟩ => oSl c k
abbrev dstSl (p : Fin 3) (c : Dev nD) (k : Fin 8) : Memref sig .tc .vmem S16x256 .f32 :=
  match p with | ⟨0, _⟩ => r1Sl k | ⟨1, _⟩ => r2Sl k | ⟨_ + 2, _⟩ => oSl c k

/-- What the source slice of copy `(p, k)` holds when the copy starts. -/
def srcC (c : Dev nD) (p : Fin 3) (k : Fin 8) : Buf (Elt F) ((srcSl p c k).view.loc (c : Thread nD τ)) :=
  match p with | ⟨0, _⟩ => xsC m c | ⟨1, _⟩ => sbC m c k | ⟨_ + 2, _⟩ => oC m c k

def sendPayPK (c : Dev nD) (p : Fin 3) (k : Fin 8) : sProp 𝕄 := sl (srcSl p c k) c (srcC m c p k)

/-- The landing slice of copy `(p, k)` on the receiver `c`: the sender's source contents written over its launch contents. -/
def recvPayPK (c : Dev nD) (p : Fin 3) (k : Fin 8) : sProp 𝕄 :=
  sl (dstSl p (peer p c) k) c ((dstSl p (peer p c) k).view.write (Elt F) (m ((dstSl p (peer p c) k).view.loc (c : Thread nD τ)))
    ((srcSl p (peer p c) k).view.read (Elt F) (srcC m (peer p c) p k)) Finset.univ)
def sendPay (c : Dev nD) (j : Fin 24) : sProp 𝕄 := sendPayPK m c (phaseOf j) (chunkOf j)
def recvPay (c : Dev nD) (j : Fin 24) : sProp 𝕄 := recvPayPK m c (phaseOf j) (chunkOf j)

def barPay (c : Dev nD) (p : Fin 3) : sProp 𝕄 :=
  bigSep Finset.univ fun k : Fin 8 =>
    iprop((∃ f, sl (dstSl p c k) (peer p c) f) ∗ reached ER (recvCell (peer p c) (jOf p k)) 0)

def sched : Rounds.Schedule (GSem nD τ sig) (Fin 3) 𝕄 where
  duties g r := if r = 0 ∧ g.1.2 = .tc then (if g.2 = .reg barS then Finset.univ else if (semKind g.2).isSome then {0} else ∅) else ∅
  unitless _ := False
  amount g _ _ := if g.2 = .reg barS then 1 else N
  payload g _ d :=
    if g.2 = .reg barS then barPay g.1.1 d
    else match semKind g.2 with
      | some (false, j) => sendPay m g.1.1 j
      | some (true, j) => recvPay m g.1.1 j
      | none => iprop(emp)
  amount_pos g _ _ _ := by
    by_cases h : g.2 = .reg barS
    · rw [if_pos h]; exact Nat.one_pos
    · rw [if_neg h]; exact N_pos

instance sched_payload_storable (g : GSem nD τ sig) (r : ℕ) (d : Fin 3) :
    BI.Storable (upEmb : UEmb _ 𝕄) ((sched (F := F) m).payload g r d) := by
  show BI.Storable upEmb (if g.2 = .reg barS then barPay g.1.1 d
    else match semKind g.2 with
      | some (false, j) => sendPay m g.1.1 j
      | some (true, j) => recvPay m g.1.1 j
      | none => iprop(emp))
  unfold barPay sendPay recvPay sendPayPK recvPayPK
  (repeat' split) <;> infer_instance

abbrev CIx : Type := Option (Bool × Fin 24)
abbrev csem : CIx → SemLoc sig
  | none => .reg barS
  | some (false, j) => .dma (sendSem j)
  | some (true, j) => .dma (recvSem j)
abbrev kcell (ck : Dev nD × CIx) : GSem nD τ sig := ((ck.1 : Thread nD τ), csem ck.2)

abbrev osem : Bool × Fin 24 → SemLoc sig := fun bj => csem (some bj)

def recvTally (c : Dev nD) (j : Fin 24) : CellTallies nD τ sig Unit := tallyAt (recvCell (peer (phaseOf j) c) j) () N
def owedAux (c : Dev nD) : ℕ → ℕ → CellTallies nD τ sig Unit
  | 0, _ => 0
  | f + 1, n => owedAux c f (n + 1) + (if h : n < 24 then recvTally c ⟨n, h⟩ else 0)

def owedFrom (c : Dev nD) (n : ℕ) : CellTallies nD τ sig Unit := owedAux c (24 - n) n

def O₀ (c : Dev nD) : CellTallies nD τ sig Unit :=
  ((owedFrom c 0 + tallyAt (barCell (peer 2 c)) () 1) + tallyAt (barCell (peer 1 c)) () 1) + tallyAt (barCell (peer 0 c)) () 1

def L (g : GSem nD τ sig) : Finset Unit := if g.1.2 = .tc then {()} else ∅

def lv (g : GSem nD τ sig) (_ : Unit) : ℕ :=
  if g.2 = .reg barS then 1 else match semKind g.2 with
    | some (true, j) => 2 + j.val / 8
    | _ => 0

def records (K : Dev nD × CIx → ℕ) : sProp 𝕄 :=
  iprop((bigSep Finset.univ fun ck : Dev nD × CIx => cellInv ER (sched m) (K ck) (kcell ck))
    ∗ bigSep Finset.univ fun ck : Dev nD × CIx => reached ER (kcell ck) 0)

instance records_persistent (K : Dev nD × CIx → ℕ) : BI.Persistent (records (F := F) m K) := by unfold records; infer_instance

def payToks (c : Dev nD) : sProp 𝕄 :=
  iprop((bigSep Finset.univ fun p : Fin 3 => dutyTok ER (barCell (peer p c)) 0 p)
    ∗ (bigSep Finset.univ fun j : Fin 24 => dutyTok ER (recvCell (peer (phaseOf j) c) j) 0 (0 : Fin 3))
    ∗ (bigSep Finset.univ fun j : Fin 24 => dutyTok ER (sendCell c j) 0 (0 : Fin 3)))

def positions (c : Dev nD) : sProp 𝕄 := bigSep Finset.univ fun i : CIx => atPos ER (kcell (c, i)) 0 ∅ 0
def linear (c : Dev nD) : sProp 𝕄 := iprop(positions c ∗ payToks c)
def ghost (K : Dev nD × CIx → ℕ) (c : Dev nD) : sProp 𝕄 := iprop(records m K ∗ linear c)

def start (c : Dev nD) : sProp 𝕄 :=
  iprop((∃ K, ghost m K c) ∗ cred (tallyAt (barCell c) () 3)
    ∗ (bigSep Finset.univ fun j : Fin 24 => cred (tallyAt (recvCell c j) () N)) ∗ levAts L lv)

abbrev anyBuf (c : Dev nD) (b : Ref sig .tc) : sProp 𝕄 := iprop(∃ f : Buf (Elt F) ((c : Thread nD τ).loc b), ((c : Thread nD τ).loc b) ↦{fullShare} f)
def scratch (c : Dev nD) : sProp 𝕄 := iprop(anyBuf c cc0_scratch0 ∗ anyBuf c cc0_scratch1 ∗ anyBuf c cc0_scratch2)

def Φ₀ (c : Dev nD) : sProp 𝕄 := iprop(start m c ∗ scratch c)

def Φ₁ (c : Dev nD) : sProp 𝕄 := iprop(scratch c ∗ bigSep Finset.univ fun bj : Bool × Fin 24 => semVal (kcell (c, some bj)) 0)

def outPieces (c : Dev nD) : List (View.Piece (Elt F) S256x256 .f32) :=
  (List.finRange 8).map (fun k => (⟨rowRect2 c k, oVal m c k⟩ : View.Piece (Elt F) S256x256 .f32))
    ++ (List.finRange 8).map (fun k => (⟨rowRect (peer 2 c) k, (oSl (peer 2 c) k).view.read (Elt F) (oC m (peer 2 c) k)⟩ : View.Piece (Elt F) S256x256 .f32))
def outAt (c : Dev nD) : (cc0_stg1_0 : Ref sig .tc).ty.Contents (Elt F) :=
  oM.view.writes (Elt F) (m ((c : Thread nD τ).loc cc0_stg1_0)) (outPieces m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xsC m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelIdeal.Proto

end
-- ==== Proof.State.lean ====
import proofs.«900728_g7700000000000729_dist_ar_v7x_xyz2x4x4_y_m256_n256_f32_1_alg».proof.Proof.Proto

noncomputable section

namespace Cert.KernelIdeal.State

open Cert.KernelIdeal Cert.KernelIdeal.Gen Cert.KernelIdeal.Mesh Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CIx → ℕ)

def ready (c : Dev nD) (p : Fin 3) (k : Fin 8) : sProp 𝕄 :=
  iprop((∃ f, sl (dstSl p c k) (peer p c) f) ∗ dutyTok ER (recvCell (peer p c) (jOf p k)) 0 (0 : Fin 3)
    ∗ dutyTok ER (sendCell c (jOf p k)) 0 (0 : Fin 3) ∗ atPos ER (sendCell c (jOf p k)) 0 ∅ 0)
def flying (c : Dev nD) (j : Fin 24) : sProp 𝕄 := iprop(cred (tallyAt (sendCell c j) () N) ∗ atPos ER (sendCell c j) 0 ∅ 0)
def sdone (c : Dev nD) (j : Fin 24) : sProp 𝕄 := atPos ER (sendCell c j) 1 ∅ 0
def rpend (c : Dev nD) (j : Fin 24) : sProp 𝕄 := iprop(cred (tallyAt (recvCell c j) () N) ∗ atPos ER (recvCell c j) 0 ∅ 0)
def rdone (c : Dev nD) (j : Fin 24) : sProp 𝕄 := atPos ER (recvCell c j) 1 ∅ 0

/-- Exchange `p` of chunk `k` by stage: 0 source not yet written, 1 written, 2 copy in flight, 3 send waited for, 4 partner's copy landed. -/
def seg (c : Dev nD) (p : Fin 3) (k : Fin 8) : ℕ → sProp 𝕄
  | 0 => iprop((∃ f, sl (srcSl p c k) c f) ∗ ready c p k ∗ rpend c (jOf p k))
  | 1 => iprop(sendPayPK m c p k ∗ ready c p k ∗ rpend c (jOf p k))
  | 2 => iprop(flying c (jOf p k) ∗ rpend c (jOf p k))
  | 3 => iprop(sendPayPK m c p k ∗ sdone c (jOf p k) ∗ rpend c (jOf p k))
  | _ => iprop(sendPayPK m c p k ∗ sdone c (jOf p k) ∗ recvPayPK m c p k ∗ rdone c (jOf p k))

theorem seg_1 (c : Dev nD) (p : Fin 3) (k : Fin 8) : seg m c p k 1 = iprop(sendPayPK m c p k ∗ ready c p k ∗ rpend c (jOf p k)) := rfl
theorem seg_2 (c : Dev nD) (p : Fin 3) (k : Fin 8) : seg m c p k 2 = iprop(flying c (jOf p k) ∗ rpend c (jOf p k)) := rfl
theorem seg_3 (c : Dev nD) (p : Fin 3) (k : Fin 8) : seg m c p k 3 = iprop(sendPayPK m c p k ∗ sdone c (jOf p k) ∗ rpend c (jOf p k)) := rfl
theorem seg_4 (c : Dev nD) (p : Fin 3) (k : Fin 8) :
    seg m c p k 4 = iprop(sendPayPK m c p k ∗ sdone c (jOf p k) ∗ recvPayPK m c p k ∗ rdone c (jOf p k)) := rfl

def cnt (g : ℕ) (l : List ℕ) : ℕ := (l.filter (· < g)).length
/-- The stage of exchange `p` of chunk `k` before the `g`-th operation after the entry handshake, counted in program order. -/
def stage (p : Fin 3) (g k : ℕ) : ℕ :=
  match p with
  | ⟨0, _⟩ => 1 + cnt g [k, 8 + 7 * k, 9 + 7 * k]
  | ⟨1, _⟩ => cnt g [13 + 7 * k, 14 + 7 * k, 64 + 7 * k, 65 + 7 * k]
  | ⟨_ + 2, _⟩ => cnt g [69 + 7 * k, 70 + 7 * k, 120 + 2 * k, 121 + 2 * k]
def started (g : ℕ) : ℕ :=
  cnt g [0, 1, 2, 3, 4, 5, 6, 7, 14, 21, 28, 35, 42, 49, 56, 63, 70, 77, 84, 91, 98, 105, 112, 119]

def ownHalf (c : Dev nD) : Finset (Idx (xM.view.loc (c : Thread nD τ))) :=
  Finset.univ.biUnion fun k : Fin 8 => (xSl c k).view.set
def xRest (c : Dev nD) : sProp 𝕄 :=
  xM.view.loc (c : Thread nD τ) ↦[xM.view.set \ ownHalf c]{fullShare} xsC m c

def segs (c : Dev nD) (g : ℕ) : sProp 𝕄 := bigSep Finset.univ fun pk : Fin 3 × Fin 8 => seg m c pk.1 pk.2 (stage pk.1 g pk.2.val)

/-- The state of one device before operation `g` (0 just after the entry handshake, 136 at the end). -/
def St (c : Dev nD) (g : ℕ) : sProp 𝕄 :=
  iprop(records m K ∗ levAts L lv ∗ xRest m c ∗ (∃ W, owes (c : Thread nD τ) (owedFrom c (started g)) W) ∗ segs m c g)

/-- From operation `g` to `g'` only exchange `p` of chunk `k` moves, from stage `a` to `a'`. -/
def Move (g g' : ℕ) (p : Fin 3) (k : Fin 8) (a a' : ℕ) : Prop :=
  stage p g k.val = a ∧ stage p g' k.val = a' ∧ ∀ q : Fin 3 × Fin 8, q ≠ (p, k) → stage q.1 g q.2.val = stage q.1 g' q.2.val

instance (g g' : ℕ) (p : Fin 3) (k : Fin 8) (a a' : ℕ) : Decidable (Move g g' p k a a') := by unfold Move; infer_instance

def rest (c : Dev nD) (g : ℕ) (pk : Fin 3 × Fin 8) : sProp 𝕄 :=
  bigSep (Finset.univ.erase pk) fun q : Fin 3 × Fin 8 => seg m c q.1 q.2 (stage q.1 g q.2.val)

theorem segs_split (c : Dev nD) (g : ℕ) (p : Fin 3) (k : Fin 8) :
    segs m c g = iprop(seg m c p k (stage p g k.val) ∗ rest m c g (p, k)) := bigSep_univ_split (p, k)

/-- An operation on exchange `p` of chunk `k` is run on that exchange alone; the rest of the state is carried over. -/
theorem St_move (c : Dev nD) (p : Fin 3) (k : Fin 8) (g g' : ℕ) {a a' n n' : ℕ} (h : Move g g' p k a a')
    (hn : started g = n) (hn' : started g' = n') {P P' : sProp 𝕄}
    (H : ∀ W, iprop(records m K ∗ levAts L lv ∗ owes (c : Thread nD τ) (owedFrom c n) W ∗ seg m c p k a)
      ⊢ iprop((((∃ W', owes (c : Thread nD τ) (owedFrom c n') W') ∗ seg m c p k a') -∗ P') -∗ P))
    (HK : St m K c g' ⊢ P') : St m K c g ⊢ P := by
  obtain ⟨rfl, rfl, hs⟩ := h
  subst hn hn'
  have hr : rest m c g (p, k) = rest m c g' (p, k) :=
    bigSep_congr fun q hq => by rw [hs q (Finset.ne_of_mem_erase hq)]
  have HK' : iprop(records m K ∗ levAts L lv ∗ xRest m c ∗ (∃ W, owes (c : Thread nD τ) (owedFrom c (started g')) W)
      ∗ seg m c p k (stage p g' k.val) ∗ rest m c g (p, k)) ⊢ P' := by
    rw [hr, ← segs_split m c g' p k]; exact HK
  unfold St
  rw [segs_split m c g p k]
  iintro ⟨#HR, #HL, HX, ⟨%W, HO⟩, S, HB⟩
  iapply (H W) $$ [HO S]
  · iframe HR HL HO S
  iintro ⟨HO, S⟩
  iapply HK'
  iframe HR HL HX HO S HB

end Cert.KernelIdeal.State

end
-- ==== Proof.BodyDefs.lean ====
import proofs.«900728_g7700000000000729_dist_ar_v7x_xyz2x4x4_y_m256_n256_f32_1_alg».proof.Proof.State

noncomputable section

namespace Cert.KernelIdeal.BodyDefs

open Cert.KernelIdeal Cert.KernelIdeal.Gen Cert.KernelIdeal.Mesh Cert.KernelIdeal.Proto Cert.KernelIdeal.State

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CIx → ℕ)

theorem cfg0_N : cfg0.N = 1 := by decide

def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ cred (tallyAt (barCell c) () 3) ∗ (bigSep Finset.univ fun j : Fin 24 => cred (tallyAt (recvCell c j) () N)) ∗ levAts L lv ∗ scratch c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xsC m c) ∗ stg c cc0_stg1_0 (outAt m c))

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A function of the kernel's operands, at the device's own buffers and semaphores. -/
abbrev atBufs {γ : Sort _} (f : (a0 : Memref sig .tc .vmem S256x256 .f32) → a0.IsWhole → (a1 : Memref sig .tc .vmem S256x256 .f32) → a1.IsWhole
    → (a2 : Memref sig .tc .vmem S8x16x256 .f32) → a2.IsWhole → (a3 : Memref sig .tc .vmem S8x16x256 .f32) → a3.IsWhole
    → (a4 : Memref sig .tc .vmem S8x16x256 .f32) → a4.IsWhole → DmaSems sig S24 → DmaSems sig S24 → γ) : γ :=
  f (Memref.whole cc0_stg0_0) (Memref.isWhole_whole _) (Memref.whole cc0_stg1_0) (Memref.isWhole_whole _) (Memref.whole cc0_scratch0) (Memref.isWhole_whole _)
    (Memref.whole cc0_scratch1) (Memref.isWhole_whole _) (Memref.whole cc0_scratch2) (Memref.isWhole_whole _) cc0_scratch3 cc0_scratch4

end Cert.KernelIdeal.BodyDefs

end
-- ==== Proof.Mesh.lean ====
import proofs.«900728_g7700000000000729_dist_ar_v7x_xyz2x4x4_y_m256_n256_f32_1_alg».proof.Proof.Base
import Idealize.ShloMosaic.Lib.Layout

namespace Cert.KernelIdeal.Mesh

open Idealize.ShloMosaic
open Cert.KernelIdeal

theorem peer_peer : ∀ (p : Fin 3) (c : Dev nD), peer p (peer p c) = c := by decide +kernel

/-- A device function of the program that names pairing `p`'s partner at every device of the mesh. -/
theorem dev_eq (f : Dev nD → ℕ) {p : Fin 3} (c : Dev nD) (h : f c < nD) (hf : ∀ c, f c = (peer p c).val := by decide +kernel) :
    (⟨f c, h⟩ : Dev nD) = peer p c := Fin.ext (hf c)

theorem dev1_eq (c : Dev nD) (h : k0_dev1 c < nD) : (⟨k0_dev1 c, h⟩ : Dev nD) = peer 0 c := dev_eq k0_dev1 c h
theorem dev2_eq (c : Dev nD) (h : k0_dev2 c < nD) : (⟨k0_dev2 c, h⟩ : Dev nD) = peer 1 c := dev_eq k0_dev2 c h
theorem dev3_eq (c : Dev nD) (h : k0_dev3 c < nD) : (⟨k0_dev3 c, h⟩ : Dev nD) = peer 2 c := dev_eq k0_dev3 c h

theorem half_le : ∀ c : Dev nD, c.val / 16 ≤ 1 := by decide +kernel
theorem half_peer0 : ∀ c : Dev nD, (peer 0 c).val / 16 = c.val / 16 := by decide +kernel
theorem half_peer1 : ∀ c : Dev nD, (peer 1 c).val / 16 = c.val / 16 := by decide +kernel
theorem half_peer2 : ∀ c : Dev nD, (peer 2 c).val / 16 = 1 - c.val / 16 := by decide +kernel

def yOf (c : Dev nD) : Fin 4 := ⟨(c.val / 4) % 4, Nat.mod_lt _ (by decide)⟩

theorem meshBlock_val0 : ∀ c : Dev nD,
    ((Layout.meshBlock [2, 4, 4] ![[1], []] c) 0).val = (yOf c).val := by decide +kernel

theorem meshBlock_val1 : ∀ c : Dev nD,
    ((Layout.meshBlock [2, 4, 4] ![[1], []] c) 1).val = 0 := by decide +kernel

theorem meshBlock_idx_val
    (h : Layout.TilesN ⟨2, ![256, 256]⟩ ⟨2, ![1024, 256]⟩
      (fun b : Fin 2 => Layout.cutSize [2, 4, 4] ((![[1], []] : Fin 2 → List Nat) b)))
    (c : Dev nD) (i : (⟨2, ![256, 256]⟩ : Shape).Idx) :
    (h.idx (Layout.meshBlock [2, 4, 4] ![[1], []] c) i 0).val = (yOf c).val * 256 + (i 0).val ∧
    (h.idx (Layout.meshBlock [2, 4, 4] ![[1], []] c) i 1).val = (i 1).val := by
  constructor
  · show ((Layout.meshBlock [2, 4, 4] ![[1], []] c) 0).val * 256 + (i 0).val = _
    rw [meshBlock_val0]
  · show ((Layout.meshBlock [2, 4, 4] ![[1], []] c) 1).val * 256 + (i 1).val = _
    rw [meshBlock_val1, Nat.zero_mul, Nat.zero_add]

end Cert.KernelIdeal.Mesh
-- ==== Proof.Sched.lean ====
import proofs.«900728_g7700000000000729_dist_ar_v7x_xyz2x4x4_y_m256_n256_f32_1_alg».proof.Proof.Proto
import proofs.«900728_g7700000000000729_dist_ar_v7x_xyz2x4x4_y_m256_n256_f32_1_alg».proof.Proof.Mesh
import Mathlib.Data.Fintype.Option

noncomputable section

namespace Cert.KernelIdeal.Sched

open Cert.KernelIdeal Cert.KernelIdeal.Gen Cert.KernelIdeal.Mesh Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem semKind_csem : ∀ i : CIx, semKind (csem i) = i
  | none => semKind_bar
  | some (false, j) => semKind_send j
  | some (true, j) => semKind_recv j

theorem csem_injective : Function.Injective (csem : CIx → SemLoc sig) := fun a b h => by
  rw [← semKind_csem a, ← semKind_csem b, h]

theorem send_ne_bar (j : Fin 24) : (SemLoc.dma (sendSem j) : SemLoc sig) ≠ .reg barS := fun h => by cases h
theorem recv_ne_bar (j : Fin 24) : (SemLoc.dma (recvSem j) : SemLoc sig) ≠ .reg barS := fun h => by cases h
theorem dev_of_cell_eq {a b : Dev nD} {s s' : SemLoc sig}
    (h : (((a : Thread nD τ), s) : GSem nD τ sig) = ((b : Thread nD τ), s')) : a = b :=
  congrArg (fun g : GSem nD τ sig => g.1.1) h

theorem barCell_eq_iff {a b : Dev nD} : barCell a = barCell b ↔ a = b :=
  ⟨dev_of_cell_eq, fun h => by rw [h]⟩
theorem kcell_injective : Function.Injective (kcell : Dev nD × CIx → GSem nD τ sig) := by
  rintro ⟨c, i⟩ ⟨c', i'⟩ h
  have h1 : c = c' := dev_of_cell_eq h
  have h2 : i = i' := csem_injective (congrArg Prod.snd h)
  rw [h1, h2]

theorem osem_injective : Function.Injective (osem : Bool × Fin 24 → SemLoc sig) := fun a b h =>
  Option.some.inj (csem_injective h)

theorem phaseOf_jOf (p : Fin 3) (k : Fin 8) : phaseOf (jOf p k) = p := Fin.ext (by show (8 * p.val + k.val) / 8 = p.val; omega)
theorem chunkOf_jOf (p : Fin 3) (k : Fin 8) : chunkOf (jOf p k) = k := Fin.ext (by show (8 * p.val + k.val) % 8 = k.val; omega)
theorem jOf_phaseOf_chunkOf (j : Fin 24) : jOf (phaseOf j) (chunkOf j) = j := Fin.ext (by show 8 * (j.val / 8) + j.val % 8 = j.val; omega)

def pkEquiv : Fin 3 × Fin 8 ≃ Fin 24 where
  toFun pk := jOf pk.1 pk.2
  invFun j := (phaseOf j, chunkOf j)
  left_inv pk := Prod.ext (phaseOf_jOf pk.1 pk.2) (chunkOf_jOf pk.1 pk.2)
  right_inv j := jOf_phaseOf_chunkOf j

theorem bigSep_fin3' {M : Type _} [URA M] (Φ : Fin 3 → sProp M) : bigSep Finset.univ Φ = iprop(Φ 0 ∗ Φ 1 ∗ Φ 2) :=
  bigSep_univ_eq_bigSepL [(0 : Fin 3), 1, 2] (by decide) (by decide) Φ

theorem bigSep_fin24 {M : Type _} [URA M] (Φ : Fin 24 → sProp M) :
    bigSep Finset.univ Φ = iprop((bigSep Finset.univ fun k : Fin 8 => Φ (jOf 0 k)) ∗ (bigSep Finset.univ fun k : Fin 8 => Φ (jOf 1 k))
      ∗ (bigSep Finset.univ fun k : Fin 8 => Φ (jOf 2 k))) := by
  rw [bigSep_univ_equiv pkEquiv Φ, bigSep_univ_prod, bigSep_fin3']
  rfl

theorem bigSep_cells {M : Type _} [URA M] (Φ : Bool × Fin 24 → sProp M) :
    bigSep Finset.univ Φ = iprop((bigSep Finset.univ fun j : Fin 24 => Φ (false, j)) ∗ (bigSep Finset.univ fun j : Fin 24 => Φ (true, j))) := by
  rw [bigSep_univ_prod, bigSep_univ_eq_bigSepL [false, true] (by decide) (by decide)]
  rfl

theorem bigSep_option {M : Type _} [URA M] {α : Type} [Fintype α] [DecidableEq α] (Φ : Option α → sProp M) :
    bigSep Finset.univ Φ = iprop(Φ none ∗ bigSep Finset.univ fun a => Φ (some a)) := by
  have h : (Finset.univ : Finset (Option α)) = insert none (Finset.univ.map Function.Embedding.some) := by
    ext x; cases x <;> simp
  rw [h, bigSep_insert (by simp), bigSep_map]; rfl

theorem sendPay_jOf (c : Dev nD) (p : Fin 3) (k : Fin 8) : sendPay m c (jOf p k) = sendPayPK m c p k := by
  unfold sendPay; rw [phaseOf_jOf, chunkOf_jOf]
theorem recvPay_jOf (c : Dev nD) (p : Fin 3) (k : Fin 8) : recvPay m c (jOf p k) = recvPayPK m c p k := by
  unfold recvPay; rw [phaseOf_jOf, chunkOf_jOf]

section Tables
variable (c : Dev nD)

theorem duties_bar : (sched (F := F) m).duties (barCell c) 0 = Finset.univ := by
  dsimp only [sched]; rw [if_pos ⟨rfl, rfl⟩, if_pos rfl]
theorem duties_send (j : Fin 24) : (sched (F := F) m).duties (sendCell c j) 0 = {0} := by
  dsimp only [sched]; rw [if_pos ⟨rfl, rfl⟩, if_neg (send_ne_bar j), if_pos (by rw [semKind_send]; rfl)]
theorem duties_recv (j : Fin 24) : (sched (F := F) m).duties (recvCell c j) 0 = {0} := by
  dsimp only [sched]; rw [if_pos ⟨rfl, rfl⟩, if_neg (recv_ne_bar j), if_pos (by rw [semKind_recv]; rfl)]
theorem duties_later (g : GSem nD τ sig) : ∀ r, 1 ≤ r → (sched (F := F) m).duties g r = ∅ :=
  fun r hr => by dsimp only [sched]; rw [if_neg fun h => by have := h.1; omega]

theorem amount_bar (d : Fin 3) : (sched (F := F) m).amount (barCell c) 0 d = 1 := by dsimp only [sched]; exact if_pos rfl
theorem amount_send (j : Fin 24) (d : Fin 3) : (sched (F := F) m).amount (sendCell c j) 0 d = N := by
  dsimp only [sched]; exact if_neg (send_ne_bar j)
theorem amount_recv (j : Fin 24) (d : Fin 3) : (sched (F := F) m).amount (recvCell c j) 0 d = N := by
  dsimp only [sched]; exact if_neg (recv_ne_bar j)

theorem expect_bar : (sched (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send (j : Fin 24) : (sched (F := F) m).expect (sendCell c j) 0 = N := by
  unfold Schedule.expect Schedule.amountOf; rw [duties_send, Finset.sum_singleton, amount_send]
theorem expect_recv (j : Fin 24) : (sched (F := F) m).expect (recvCell c j) 0 = N := by
  unfold Schedule.expect Schedule.amountOf; rw [duties_recv, Finset.sum_singleton, amount_recv]

theorem payload_bar (p : Fin 3) : (sched (F := F) m).payload (barCell c) 0 p = barPay c p := by
  dsimp only [sched]; rw [if_pos rfl]
theorem payload_send (j : Fin 24) (d : Fin 3) : (sched (F := F) m).payload (sendCell c j) 0 d = sendPay m c j := by
  dsimp only [sched]; rw [if_neg (send_ne_bar j), semKind_send]
theorem payload_recv (j : Fin 24) (d : Fin 3) : (sched (F := F) m).payload (recvCell c j) 0 d = recvPay m c j := by
  dsimp only [sched]; rw [if_neg (recv_ne_bar j), semKind_recv]

theorem rest_bar : bigSep ((sched (F := F) m).duties (barCell c) 0 \ ∅) (fun d => (sched (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]
  rfl
theorem rest_send (j : Fin 24) : bigSep ((sched (F := F) m).duties (sendCell c j) 0 \ ∅) (fun d => (sched (F := F) m).payload (sendCell c j) 0 d)
    = sendPay m c j := by
  rw [Finset.sdiff_empty, duties_send, bigSep_singleton, payload_send]
theorem rest_recv (j : Fin 24) : bigSep ((sched (F := F) m).duties (recvCell c j) 0 \ ∅) (fun d => (sched (F := F) m).payload (recvCell c j) 0 d)
    = recvPay m c j := by
  rw [Finset.sdiff_empty, duties_recv, bigSep_singleton, payload_recv]

end Tables

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := if_pos rfl
theorem lv_recv (c : Dev nD) (j : Fin 24) : lv (recvCell c j) () = 2 + j.val / 8 := by
  unfold lv; rw [if_neg (recv_ne_bar j), semKind_recv]
theorem lv_send (c : Dev nD) (j : Fin 24) : lv (sendCell c j) () = 0 := by
  unfold lv; rw [if_neg (send_ne_bar j), semKind_send]
theorem lv_other (c : Dev nD) (q : DmaSem sig) (h : semKind (.dma q) = none) : lv ((c : Thread nD τ), .dma q) () = 0 := by
  unfold lv; rw [if_neg (fun h' => by cases h'), h]

end Cert.KernelIdeal.Sched

end
-- ==== Proof.Levels.lean ====
import proofs.«900728_g7700000000000729_dist_ar_v7x_xyz2x4x4_y_m256_n256_f32_1_alg».proof.Proof.State
import proofs.«900728_g7700000000000729_dist_ar_v7x_xyz2x4x4_y_m256_n256_f32_1_alg».proof.Proof.Sched

noncomputable section

namespace Cert.KernelIdeal.Levels

open Cert.KernelIdeal Cert.KernelIdeal.Gen Cert.KernelIdeal.Mesh Cert.KernelIdeal.Proto Cert.KernelIdeal.State Cert.KernelIdeal.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def rt (c : Dev nD) (k : ℕ) : CellTallies nD τ sig Unit := if h : k < 24 then recvTally c ⟨k, h⟩ else 0

theorem owedAux_succ (c : Dev nD) (f n : ℕ) : owedAux c (f + 1) n = owedAux c f (n + 1) + rt c n := rfl

theorem owedFrom_succ (c : Dev nD) (n : ℕ) (h : n < 24) : owedFrom c n = owedFrom c (n + 1) + recvTally c ⟨n, h⟩ := by
  unfold owedFrom
  have hk : 24 - n = (24 - (n + 1)) + 1 := by omega
  rw [hk, owedAux_succ]
  unfold rt
  rw [dif_pos h]

theorem owedFrom_24 (c : Dev nD) : owedFrom c 24 = 0 := rfl

theorem tallyAt_pos {g₀ g : GSem nD τ sig} {u : Unit} {k : ℕ} (h : 0 < tallyAt g₀ () k g u) : g = g₀ := by
  rw [tallyAt_apply] at h
  by_cases hg : g = g₀ ∧ u = ()
  · exact hg.1
  · rw [if_neg hg] at h; exact absurd h (Nat.lt_irrefl 0)

theorem owedAux_pos (c : Dev nD) : ∀ (f n : ℕ) (g : GSem nD τ sig) (u : Unit), 0 < owedAux c f n g u →
    ∃ j : Fin 24, n ≤ j.val ∧ g = recvCell (peer (phaseOf j) c) j
  | 0, n, g, u, h => absurd (show (0 : ℕ) < 0 from h) (Nat.lt_irrefl 0)
  | f + 1, n, g, u, h => by
    rw [owedAux_succ, Pi.add_apply, Finsupp.add_apply] at h
    rcases Nat.add_pos_iff_pos_or_pos.mp h with ha | hb
    · obtain ⟨j, hj, hg⟩ := owedAux_pos c f (n + 1) g u ha
      exact ⟨j, by omega, hg⟩
    · unfold rt at hb
      by_cases hn : n < 24
      · rw [dif_pos hn] at hb
        exact ⟨⟨n, hn⟩, Nat.le_refl _, tallyAt_pos hb⟩
      · rw [dif_neg hn] at hb
        exact absurd (show (0 : ℕ) < 0 from hb) (Nat.lt_irrefl 0)

theorem owedFrom_pos {c : Dev nD} {n : ℕ} {g : GSem nD τ sig} {u : Unit} (h : 0 < owedFrom c n g u) :
    ∃ j : Fin 24, n ≤ j.val ∧ g = recvCell (peer (phaseOf j) c) j :=
  owedAux_pos c _ n g u h

theorem O₀_pos {c : Dev nD} {g : GSem nD τ sig} {u : Unit} (h : 0 < O₀ c g u) :
    (∃ j : Fin 24, g = recvCell (peer (phaseOf j) c) j) ∨ ∃ p : Fin 3, g = barCell (peer p c) := by
  unfold O₀ at h
  rw [Pi.add_apply, Finsupp.add_apply, Pi.add_apply, Finsupp.add_apply, Pi.add_apply, Finsupp.add_apply] at h
  rcases Nat.add_pos_iff_pos_or_pos.mp h with h | h
  · rcases Nat.add_pos_iff_pos_or_pos.mp h with h | h
    · rcases Nat.add_pos_iff_pos_or_pos.mp h with h | h
      · obtain ⟨j, _, hg⟩ := owedFrom_pos h
        exact .inl ⟨j, hg⟩
      · exact .inr ⟨2, tallyAt_pos h⟩
    · exact .inr ⟨1, tallyAt_pos h⟩
  · exact .inr ⟨0, tallyAt_pos h⟩

omit [FloatOps F] in

theorem mayWait_cut (c : Dev nD) (s : SemLoc sig) (O : CellTallies nD τ sig Unit) (b : ℕ)
    (hs : lv ((c : Thread nD τ), s) () ≤ b)
    (hO : ∀ (g : GSem nD τ sig) (u : Unit), 0 < O g u → g.1.2 = .tc ∧ b < lv g u) :
    (levAts L lv : sProp 𝕄) ⊢ MayWait (c : Thread nD τ) s () O :=
  MayOwe.of_cut (L := L) (lev := lv) b
    (fun p hp => by rw [Finset.mem_singleton.mp hp, L_tc]; exact Finset.mem_singleton_self _)
    (fun g u hg => by
      have hL : L g = {()} := if_pos (hO g u hg).1
      rw [hL]; exact Finset.mem_singleton_self _)
    (fun p hp => by rw [Finset.mem_singleton.mp hp]; exact hs)
    (fun g u hg => (hO g u hg).2)

omit [FloatOps F] in

theorem mayWait_bar (c : Dev nD) : (levAts L lv : sProp 𝕄) ⊢ MayWait (c : Thread nD τ) (.reg barS) () (owedFrom c 0) :=
  mayWait_cut c _ _ 1 (Nat.le_of_eq (lv_bar c)) fun g u hg => by
    obtain ⟨j, _, rfl⟩ := owedFrom_pos hg
    refine ⟨rfl, ?_⟩
    rw [lv_recv]; omega

omit [FloatOps F] in

theorem mayWait_send (c : Dev nD) (j : Fin 24) (n : ℕ) :
    (levAts L lv : sProp 𝕄) ⊢ MayWait (c : Thread nD τ) (.dma (sendSem j)) () (owedFrom c n) :=
  mayWait_cut c _ _ 0 (Nat.le_of_eq (lv_send c j)) fun g u hg => by
    obtain ⟨j', _, rfl⟩ := owedFrom_pos hg
    refine ⟨rfl, ?_⟩
    rw [lv_recv]; omega

omit [FloatOps F] in

theorem mayWait_recv (c : Dev nD) (j : Fin 24) (n : ℕ) (hn : 8 * (j.val / 8 + 1) ≤ n) :
    (levAts L lv : sProp 𝕄) ⊢ MayWait (c : Thread nD τ) (.dma (recvSem j)) () (owedFrom c n) :=
  mayWait_cut c _ _ (2 + j.val / 8) (Nat.le_of_eq (lv_recv c j)) fun g u hg => by
    obtain ⟨j', hj', rfl⟩ := owedFrom_pos hg
    refine ⟨rfl, ?_⟩
    rw [lv_recv]; omega

omit [FloatOps F] in

theorem mayWait_stage (c : Dev nD) (q : DmaSem sig) (hq : semKind (.dma q) = none) (O : CellTallies nD τ sig Unit) (hO : O = O₀ c ∨ O = 0) :
    (levAts L lv : sProp 𝕄) ⊢ MayWait (c : Thread nD τ) (.dma q) () O := by
  rcases hO with rfl | rfl
  · refine mayWait_cut c _ _ 0 (Nat.le_of_eq (lv_other c q hq)) fun g u hg => ?_
    rcases O₀_pos hg with ⟨j, rfl⟩ | ⟨p, rfl⟩
    · refine ⟨rfl, ?_⟩
      rw [lv_recv]; omega
    · refine ⟨rfl, ?_⟩
      rw [lv_bar]; omega
  · rw [MayWait_zero]; iintro -; iempintro

theorem waits (c : Dev nD) : (levAts L lv : sProp 𝕄) ⊢ Pipeline.cellsWaits cfgs (dats (F := F) m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem owedAux_eq_sum (c : Dev nD) : ∀ (f n : ℕ), owedAux c f n = ∑ i ∈ Finset.range f, rt c (n + i)
  | 0, n => rfl
  | f + 1, n => by
    rw [owedAux_succ, owedAux_eq_sum c f (n + 1), Finset.sum_range_succ', Nat.add_zero]
    refine congrArg (· + rt c n) (Finset.sum_congr rfl fun i _ => congrArg (rt c) (by omega))

theorem owedFrom_zero (c : Dev nD) : owedFrom c 0 = ∑ j : Fin 24, recvTally c j := by
  unfold owedFrom
  rw [show 24 - 0 = 24 from rfl, owedAux_eq_sum, Fin.sum_univ_eq_sum_range (fun i => rt c (0 + i)) 24 |>.symm]
  refine Finset.sum_congr rfl fun j _ => ?_
  unfold rt
  rw [dif_pos (show 0 + j.val < 24 by omega)]
  exact congrArg (recvTally c) (Fin.ext (Nat.zero_add _))

omit [FloatOps F] in
theorem cred_split (a b : CellTallies nD τ sig Unit) : (cred (a + b) : sProp 𝕄) = iprop(cred a ∗ cred b) :=
  BI.Entails.antisymm (cred_add _ _).1 (cred_add _ _).2

omit [FloatOps F] in

theorem cred_bar (p : Fin 3) (c : Dev nD) :
    (Pipeline.launchCred (fun d => tallyAt (barCell (peer p d)) () 1) c : sProp 𝕄) ⊢ cred (tallyAt (barCell c) () 1) :=
  Pipeline.launchCred_tallyAt (.reg barS) (peer p) (peer p) (peer_peer p) (peer_peer p) () 1 c

omit [FloatOps F] in

theorem cred_recv (j : Fin 24) (c : Dev nD) :
    (Pipeline.launchCred (fun d => recvTally d j) c : sProp 𝕄) ⊢ cred (tallyAt (recvCell c j) () N) :=
  Pipeline.launchCred_tallyAt (.dma (recvSem j)) (peer (phaseOf j)) (peer (phaseOf j)) (peer_peer _) (peer_peer _) () N c

omit [FloatOps F] in

theorem creds (c : Dev nD) :
    (Pipeline.launchCred O₀ c : sProp 𝕄) ⊢ iprop(cred (tallyAt (barCell c) () 3) ∗ bigSep Finset.univ fun j : Fin 24 => cred (tallyAt (recvCell c j) () N)) := by
  have hO : (O₀ : Dev nD → CellTallies nD τ sig Unit) = fun d =>
      (((∑ j : Fin 24, recvTally d j) + tallyAt (barCell (peer 2 d)) () 1) + tallyAt (barCell (peer 1 d)) () 1)
        + tallyAt (barCell (peer 0 d)) () 1 := funext fun d => by unfold O₀; rw [owedFrom_zero]
  rw [hO,
    Pipeline.launchCred_add (fun d => ((∑ j : Fin 24, recvTally d j) + tallyAt (barCell (peer 2 d)) () 1) + tallyAt (barCell (peer 1 d)) () 1)
      (fun d => tallyAt (barCell (peer 0 d)) () 1) c,
    Pipeline.launchCred_add (fun d => (∑ j : Fin 24, recvTally d j) + tallyAt (barCell (peer 2 d)) () 1)
      (fun d => tallyAt (barCell (peer 1 d)) () 1) c,
    Pipeline.launchCred_add (fun d => ∑ j : Fin 24, recvTally d j) (fun d => tallyAt (barCell (peer 2 d)) () 1) c,
    Pipeline.launchCred_sum Finset.univ (fun j d => recvTally d j) c,
    show (tallyAt (barCell c) () 3 : CellTallies nD τ sig Unit) = tallyAt (barCell c) () 1 + tallyAt (barCell c) () 1 + tallyAt (barCell c) () 1
      from by rw [tallyAt_add, tallyAt_add],
    cred_split, cred_split]
  have hR : (bigSep Finset.univ fun j : Fin 24 => (Pipeline.launchCred (fun d => recvTally d j) c : sProp 𝕄))
      ⊢ bigSep Finset.univ fun j : Fin 24 => cred (tallyAt (recvCell c j) () N) :=
    bigSep_mono fun j _ => cred_recv j c
  iintro ⟨⟨⟨HR, H2⟩, H1⟩, H0⟩
  isplitl [H0 H1 H2]
  · isplitl [H2 H1]
    · isplitl [H2]
      · iapply (cred_bar 2 c); iexact H2
      · iapply (cred_bar 1 c); iexact H1
    · iapply (cred_bar 0 c); iexact H0
  · iapply hR; iexact HR

end Cert.KernelIdeal.Levels

end
-- ==== Proof.Steps.lean ====
import proofs.«900728_g7700000000000729_dist_ar_v7x_xyz2x4x4_y_m256_n256_f32_1_alg».proof.Proof.State
import proofs.«900728_g7700000000000729_dist_ar_v7x_xyz2x4x4_y_m256_n256_f32_1_alg».proof.Proof.BodyDefs
import proofs.«900728_g7700000000000729_dist_ar_v7x_xyz2x4x4_y_m256_n256_f32_1_alg».proof.Proof.Sched
import proofs.«900728_g7700000000000729_dist_ar_v7x_xyz2x4x4_y_m256_n256_f32_1_alg».proof.Proof.Levels
import proofs.«900728_g7700000000000729_dist_ar_v7x_xyz2x4x4_y_m256_n256_f32_1_alg».proof.Proof.Mesh

noncomputable section

namespace Cert.KernelIdeal.Steps

open Cert.KernelIdeal Cert.KernelIdeal.Gen Cert.KernelIdeal.Mesh Cert.KernelIdeal.Proto Cert.KernelIdeal.State Cert.KernelIdeal.Levels Cert.KernelIdeal.BodyDefs Cert.KernelIdeal.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CIx → ℕ)

theorem xSl_set (c : Dev nD) (k : Fin 8) :
    (xSl c k).view.set = (xM.access (rowRect2 c k)).set := by
  rw [← rowRect_eq]
theorem oSl_set (c : Dev nD) (k : Fin 8) :
    (oSl c k).view.set = (oM.access (rowRect2 c k)).set := by
  rw [← rowRect_eq]
theorem r1Sl_set (k : Fin 8) :
    (r1Sl k).view.set = (r1M.access (slotRect k)).set :=
  View.set_reshape _ _
theorem r2Sl_set (k : Fin 8) :
    (r2Sl k).view.set = (r2M.access (slotRect k)).set :=
  View.set_reshape _ _
theorem sbSl_set (k : Fin 8) :
    (sbSl k).view.set = (sbM.access (slotRect k)).set :=
  View.set_reshape _ _

theorem records_inv (ck : Dev nD × CIx) : records m K ⊢ cellInv ER (sched m) (K ck) (kcell ck) := by
  have h : (bigSep Finset.univ fun ck : Dev nD × CIx => cellInv ER (sched m) (K ck) (kcell ck))
      ⊢ cellInv ER (sched m) (K ck) (kcell ck) := bigSep_elim (Finset.mem_univ ck)
  unfold records
  iintro ⟨H, -⟩
  iapply h $$ H
theorem records_reached (ck : Dev nD × CIx) : records m K ⊢ reached ER (kcell ck) 0 := by
  have h : (bigSep Finset.univ fun ck : Dev nD × CIx => (reached ER (kcell ck) 0 : sProp 𝕄))
      ⊢ reached ER (kcell ck) 0 := bigSep_elim (Finset.mem_univ ck)
  unfold records
  iintro ⟨-, H⟩
  iapply h $$ H

/-- What lands is what the schedule promises the receiver `d`, the partner of the sender `c`. -/
theorem land (p : Fin 3) (c d : Dev nD) (hd : peer p d = c) (k : Fin 8) (fd : Buf (Elt F) ((dstSl p c k).view.loc (d : Thread nD τ))) :
    (sl (dstSl p c k) d ((dstSl p c k).view.write (Elt F) fd ((srcSl p c k).view.read (Elt F) (srcC m c p k)) Finset.univ) : sProp 𝕄)
      = recvPayPK m d p k := by
  subst hd
  exact View.pointsTo_write_univ_congr (d : Thread nD τ) (dstSl p (peer p d) k).view fullShare _ _ _

/-- Starting copy `(p, k)`: the source slice and the partner's landing slice go into flight, the copy's credit is paid off. -/
theorem wp_send (p : Fin 3) (c n : Dev nD) (k : Fin 8) (hn : n = peer p c)
    {hsc : (dstSl p c k : Memref sig (Dev.tc n : Thread nD τ).2.kind .vmem S16x256 .f32).view.ref.isScScratch = false}
    {hsrc : (srcSl p c k).view.WordExact} {hdst : (dstSl p c k).view.WordExact}
    {hsem : DmaTarget.Typed .vmem (.dma (recvSem (jOf p k))) (.remote (Dev.tc n : Thread nD τ) (dstSl p c k) (.dma (sendSem (jOf p k))) hsc)}
    {α : Type} {Q : α → sProp 𝕄} {k' : PUnit → Prog (TpuEff nD τ sig (Elt F) Λ₀ .tc) α} (W : Waits sig Unit) :
    iprop(records m K ∗ sendPayPK m c p k ∗ ready c p k ∗ owes (c : Thread nD τ) (owedFrom c (jOf p k).val) W)
      ⊢ iprop(((flying c (jOf p k) ∗ owes (c : Thread nD τ) (owedFrom c ((jOf p k).val + 1)) W) -∗ WP c (k' ⟨⟩) Q)
          -∗ WP c (.op (.enqueueDma (srcSl p c k) (.remote (Dev.tc n : Thread nD τ) (dstSl p c k) (.dma (sendSem (jOf p k))) hsc) (.dma (recvSem (jOf p k))) hsrc hdst hsem) k') Q) := by
  subst hn
  have hN : (dstSl p c k).view.amount (.dma (recvSem (jOf p k))) = N := by fin_cases p <;> rfl
  have hO : owedFrom c (jOf p k).val = owedFrom c ((jOf p k).val + 1) + tallyAt (recvCell (peer p c) (jOf p k)) () N := by
    rw [owedFrom_succ c (jOf p k).val (jOf p k).isLt]
    unfold recvTally
    rw [Fin.eta, phaseOf_jOf]
  unfold flying sendPayPK ready
  iintro ⟨#Hrec, Hsrc, ⟨⟨%fd, Hdst⟩, Htok₂, Htok₁, Hat⟩, Ho⟩ Hk
  ihave Hg₁ := (records_inv m K (c, some (false, jOf p k))) $$ Hrec
  ihave Hg₂ := (records_inv m K (peer p c, some (true, jOf p k))) $$ Hrec
  ihave Hr₁ := (records_reached m K (c, some (false, jOf p k))) $$ Hrec
  ihave Hr₂ := (records_reached m K (peer p c, some (true, jOf p k))) $$ Hrec
  iapply (wp_send_pointsTo 𝒱₀ ER (sched m) (c : Thread nD τ) none (c' := (Dev.tc (peer p c) : Thread nD τ)) (src := srcSl p c k) (dst := dstSl p c k)
      (q := fullShare) (fs := srcC m c p k) (fd := fd)
      (sS := .dma (sendSem (jOf p k))) (sem := .dma (recvSem (jOf p k))) (r₁ := 0) (r₂ := 0) (d₁ := (0 : Fin 3)) (d₂ := (0 : Fin 3))
      (κ₁ := K (c, some (false, jOf p k))) (κ₂ := K (peer p c, some (true, jOf p k)))
      (by rw [duties_send]; exact Finset.mem_singleton_self _) (by rw [duties_recv]; exact Finset.mem_singleton_self _)
      () () N hN (amount_send m c _ 0) (amount_recv m (peer p c) _ 0) (owedFrom c ((jOf p k).val + 1)) hO
      (by rw [payload_send, sendPay_jOf]; exact .rfl)
      (by rw [payload_recv, recvPay_jOf]; exact Entails.of_eq (land m p c (peer p c) (peer_peer p c) k fd)))
    $$ [Hg₁ Hg₂ Hsrc Hdst Ho Htok₁ Hr₁ Htok₂ Hr₂]
  · iframe Hg₁ Hg₂ Hsrc Hdst Ho Htok₁ Hr₁ Htok₂ Hr₂
  iintro ⟨Hc, Ho⟩
  iapply Hk
  iframe Hc Hat Ho

/-- A store of the whole slice leaves it at the written contents, whatever it held. -/
theorem sb_written (c : Dev nD) (k : Fin 8) (f) :
    (sl (sbSl k) c ((sbM.access (slotRect k)).write (Elt F) f (sbPay (xL m c k) (r1L m c k)) Finset.univ) : sProp 𝕄) = sl (sbSl k) c (sbC m c k) := by
  rw [sl, sl, sbSl_set]
  exact View.pointsTo_write_univ_congr (c : Thread nD τ) (sbM.access (slotRect k)) fullShare _ _ _
theorem o_written (c : Dev nD) (k : Fin 8) (f) :
    (sl (oSl c k) c ((oM.access (rowRect2 c k)).write (Elt F) f (oVal m c k) Finset.univ) : sProp 𝕄) = sl (oSl c k) c (oC m c k) := by
  rw [sl, sl, oSl_set]
  exact View.pointsTo_write_univ_congr (c : Thread nD τ) (oM.access (rowRect2 c k)) fullShare _ _ _

end Cert.KernelIdeal.Steps

end
-- ==== Proof.Rules.lean ====
import proofs.«900728_g7700000000000729_dist_ar_v7x_xyz2x4x4_y_m256_n256_f32_1_alg».proof.Proof.Steps

noncomputable section

namespace Cert.KernelIdeal.Rules

open Cert.KernelIdeal Cert.KernelIdeal.Gen Cert.KernelIdeal.Mesh Cert.KernelIdeal.Proto Cert.KernelIdeal.State Cert.KernelIdeal.Levels Cert.KernelIdeal.BodyDefs Cert.KernelIdeal.Sched Cert.KernelIdeal.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CIx → ℕ)

theorem jOf_div (p : Fin 3) (k : Fin 8) : (jOf p k).val / 8 = p.val := by
  have := k.isLt; show (8 * p.val + k.val) / 8 = p.val; omega

/-- The end of a stretch of the program: what is held gives the continuation at the value returned. -/
theorem st_ret (c : Dev nD) {α : Type} {Q : α → sProp 𝕄} {P : sProp 𝕄} {v : α} (H : P ⊢ Q v) : P ⊢ WP c (.ret v) Q := by
  iintro HS
  rw [WP, wp_ret]; imodintro
  iapply H $$ HS

/-- Operation `g` starts copy `(p, k)`. -/
theorem st_send (c n : Dev nD) (p : Fin 3) (k : Fin 8) (hnp : n = peer p c) (g : ℕ)
    {hsc : (dstSl p c k : Memref sig (Dev.tc n : Thread nD τ).2.kind .vmem S16x256 .f32).view.ref.isScScratch = false}
    {hsrc : (srcSl p c k).view.WordExact} {hdst : (dstSl p c k).view.WordExact}
    {hsem : DmaTarget.Typed .vmem (.dma (recvSem (jOf p k))) (.remote (Dev.tc n : Thread nD τ) (dstSl p c k) (.dma (sendSem (jOf p k))) hsc)}
    {α : Type} {Q : α → sProp 𝕄} {k' : PUnit → Prog (TpuEff nD τ sig (Elt F) Λ₀ .tc) α} (H : St m K c (g + 1) ⊢ WP c (k' ⟨⟩) Q)
    (h : Move g (g + 1) p k 1 2 ∧ started g = (jOf p k).val ∧ started (g + 1) = (jOf p k).val + 1 := by decide) :
    St m K c g ⊢ WP c (.op (.enqueueDma (srcSl p c k) (.remote (Dev.tc n : Thread nD τ) (dstSl p c k) (.dma (sendSem (jOf p k))) hsc) (.dma (recvSem (jOf p k))) hsrc hdst hsem) k') Q :=
  St_move m K c p k g (g + 1) h.1 h.2.1 h.2.2 (fun W => by
    rw [seg_1, seg_2]
    iintro ⟨#HR, #HL, HO, HA, HD, HP⟩ HK
    iapply (wp_send m K p c n k hnp W) $$ [HA HD HO]
    · iframe HR HA HD HO
    iintro ⟨HF, HO⟩
    iapply HK
    isplitl [HO]; · iexists _; iexact HO
    iframe HF HP) H

/-- Operation `g` waits for the device's own copy `(p, k)` to have left: its source slice comes back. -/
theorem st_waitSend (c : Dev nD) (p : Fin 3) (k : Fin 8) (g : ℕ) {w : TpuEff nD τ sig (Elt F) Λ₀ .tc PUnit}
    {α : Type} {Q : α → sProp 𝕄} {k' : PUnit → Prog (TpuEff nD τ sig (Elt F) Λ₀ .tc) α} (H : St m K c (g + 1) ⊢ WP c (k' ⟨⟩) Q)
    (h : Move g (g + 1) p k 2 3 ∧ started (g + 1) = started g := by decide)
    (hw : ∀ K' : PUnit → sProp 𝕄, wpE (defs₀ (F := F)) 𝒱₀ (c : Thread nD τ) none Set.univ w K' = waitSpec (c : Thread nD τ) Set.univ (.dma (sendSem (jOf p k))) N K' := by exact fun _ => rfl) :
    St m K c g ⊢ WP c (.op w k') Q :=
  St_move m K c p k g (g + 1) h.1 rfl h.2 (fun W => by
    have hh := wp_wait_rest_token 𝒱₀ ER (sched m) (c : Thread nD τ) none hw (Set.mem_univ (K (c, some (false, jOf p k)))) ()
      (O := owedFrom c (started g)) (W := W) (R := 0) (m := 0) (T := ∅) (k := k') (Q := Q) (by rw [expect_send, Nat.zero_add])
    rw [rest_send, sendPay_jOf] at hh
    rw [seg_2, seg_3]
    unfold flying sdone
    iintro ⟨#HR, #HL, HO, ⟨Hc, Hat⟩, HP⟩ HK
    ihave Hg := (records_inv m K (c, some (false, jOf p k))) $$ HR
    ihave Hmw := (mayWait_send (F := F) c (jOf p k) (started g)) $$ HL
    iapply hh $$ [Hg Hc HO Hmw Hat]
    · iframe Hg Hc HO Hmw Hat
    iintro ⟨HO, Hat, -, HA⟩
    iapply HK
    isplitl [HO]; · iexists _; iexact HO
    iframe HA Hat HP) H

/-- Operation `g` waits for the partner's copy `(p, k)` to land, every copy of the pairings up to `p` started. -/
theorem st_waitRecv (c : Dev nD) (p : Fin 3) (k : Fin 8) (g : ℕ) {w : TpuEff nD τ sig (Elt F) Λ₀ .tc PUnit}
    {α : Type} {Q : α → sProp 𝕄} {k' : PUnit → Prog (TpuEff nD τ sig (Elt F) Λ₀ .tc) α} (H : St m K c (g + 1) ⊢ WP c (k' ⟨⟩) Q)
    (h : Move g (g + 1) p k 3 4 ∧ started (g + 1) = started g ∧ 8 * (p.val + 1) ≤ started g := by decide)
    (hw : ∀ K' : PUnit → sProp 𝕄, wpE (defs₀ (F := F)) 𝒱₀ (c : Thread nD τ) none Set.univ w K' = waitSpec (c : Thread nD τ) Set.univ (.dma (recvSem (jOf p k))) N K' := by exact fun _ => rfl) :
    St m K c g ⊢ WP c (.op w k') Q :=
  St_move m K c p k g (g + 1) h.1 rfl h.2.1 (fun W => by
    have hh := wp_wait_rest_token 𝒱₀ ER (sched m) (c : Thread nD τ) none hw (Set.mem_univ (K (c, some (true, jOf p k)))) ()
      (O := owedFrom c (started g)) (W := W) (R := 0) (m := 0) (T := ∅) (k := k') (Q := Q) (by rw [expect_recv, Nat.zero_add])
    rw [rest_recv, recvPay_jOf] at hh
    rw [seg_3, seg_4]
    unfold rpend rdone
    iintro ⟨#HR, #HL, HO, HA, HD, ⟨Hc, Hat⟩⟩ HK
    ihave Hg := (records_inv m K (c, some (true, jOf p k))) $$ HR
    ihave Hmw := (mayWait_recv (F := F) c (jOf p k) (started g) (by rw [jOf_div]; exact h.2.2)) $$ HL
    iapply hh $$ [Hg Hc HO Hmw Hat]
    · iframe Hg Hc HO Hmw Hat
    iintro ⟨HO, Hat, -, HB⟩
    iapply HK
    isplitl [HO]; · iexists _; iexact HO
    iframe HA HD HB Hat) H

/-- An operation that touches exchange `p` of chunk `k` alone, no cell and nothing owed. -/
theorem St_local (c : Dev nD) (p : Fin 3) (k : Fin 8) (g : ℕ) {a a' : ℕ} (h : Move g (g + 1) p k a a' ∧ started (g + 1) = started g) {P P' : sProp 𝕄}
    (H : seg m c p k a ⊢ iprop((seg m c p k a' -∗ P') -∗ P)) (HK : St m K c (g + 1) ⊢ P') : St m K c g ⊢ P :=
  St_move m K c p k g (g + 1) h.1 rfl h.2 (fun W => by
    iintro ⟨-, -, HO, S⟩ HK
    iapply H $$ S
    iintro S
    iapply HK
    isplitl [HO]; · iexists W; iexact HO
    iexact S) HK

theorem seg0_4 (c : Dev nD) (k : Fin 8) :
    seg m c 0 k 4 = iprop(sl (xSl c k) c (xsC m c) ∗ sdone c (jOf 0 k) ∗ sl (r1Sl k) c (r1C m c k) ∗ rdone c (jOf 0 k)) := rfl
theorem seg1_0 (c : Dev nD) (k : Fin 8) : seg m c 1 k 0 = iprop((∃ f, sl (sbSl k) c f) ∗ ready c 1 k ∗ rpend c (jOf 1 k)) := rfl
theorem seg1_1 (c : Dev nD) (k : Fin 8) : seg m c 1 k 1 = iprop(sl (sbSl k) c (sbC m c k) ∗ ready c 1 k ∗ rpend c (jOf 1 k)) := rfl
theorem seg1_4 (c : Dev nD) (k : Fin 8) :
    seg m c 1 k 4 = iprop(sl (sbSl k) c (sbC m c k) ∗ sdone c (jOf 1 k) ∗ sl (r2Sl k) c (r2C m c k) ∗ rdone c (jOf 1 k)) := rfl
theorem seg2_0 (c : Dev nD) (k : Fin 8) : seg m c 2 k 0 = iprop((∃ f, sl (oSl c k) c f) ∗ ready c 2 k ∗ rpend c (jOf 2 k)) := rfl
theorem seg2_1 (c : Dev nD) (k : Fin 8) : seg m c 2 k 1 = iprop(sl (oSl c k) c (oC m c k) ∗ ready c 2 k ∗ rpend c (jOf 2 k)) := rfl

theorem st_loadX (c : Dev nD) (k : Fin 8) (g : ℕ) {hld} {α : Type} {Q : α → sProp 𝕄} {k' : Vec F S16x256 .f32 → Prog (TpuEff nD τ sig (Elt F) Λ₀ .tc) α}
    (H : St m K c (g + 1) ⊢ WP c (k' (xL m c k)) Q)
    (h : Move g (g + 1) 0 k 4 4 ∧ started (g + 1) = started g := by decide) :
    St m K c g ⊢ WP c (.op (.load xM (rowRect2 c k).toLoadRect hld) k') Q :=
  St_local m K c 0 k g h (by
    rw [seg0_4]
    iintro ⟨HA, HR⟩ HK
    iapply (wp_load_rect 𝒱₀ (c : Thread nD τ) none Set.univ (m := xM) (r := rowRect2 c k) (S := (xSl c k).view.set) (q := fullShare) (f := xsC m c) (xSl_set c k).ge) $$ HA
    iintro HA
    iapply HK
    iframe HA HR) H

theorem st_loadR1 (c : Dev nD) (k : Fin 8) (g : ℕ) {hld} {α : Type} {Q : α → sProp 𝕄} {k' : Vec F S1x16x256 .f32 → Prog (TpuEff nD τ sig (Elt F) Λ₀ .tc) α}
    (H : St m K c (g + 1) ⊢ WP c (k' (r1L m c k)) Q)
    (h : Move g (g + 1) 0 k 4 4 ∧ started (g + 1) = started g := by decide) :
    St m K c g ⊢ WP c (.op (.load r1M (slotRect k).toLoadRect hld) k') Q :=
  St_local m K c 0 k g h (by
    rw [seg0_4]
    iintro ⟨HA, HD, HB, HE⟩ HK
    iapply (wp_load_rect 𝒱₀ (c : Thread nD τ) none Set.univ (m := r1M) (r := slotRect k) (S := (r1Sl k).view.set) (q := fullShare) (f := r1C m c k) (r1Sl_set k).ge) $$ HB
    iintro HB
    iapply HK
    iframe HA HD HB HE) H

theorem st_loadSBany (c : Dev nD) (k : Fin 8) (g : ℕ) {hld} {α : Type} {Q : α → sProp 𝕄} {k' : Vec F S1x16x256 .f32 → Prog (TpuEff nD τ sig (Elt F) Λ₀ .tc) α}
    (H : ∀ v, St m K c (g + 1) ⊢ WP c (k' v) Q)
    (h : Move g (g + 1) 1 k 0 0 ∧ started (g + 1) = started g := by decide) :
    St m K c g ⊢ WP c (.op (.load sbM (slotRect k).toLoadRect hld) k') Q :=
  St_local m K c 1 k g h (by
    rw [seg1_0]
    iintro ⟨⟨%f, HA⟩, HR⟩ HK
    iapply (wp_load_rect 𝒱₀ (c : Thread nD τ) none Set.univ (m := sbM) (r := slotRect k) (S := (sbSl k).view.set) (q := fullShare) (f := f) (sbSl_set k).ge) $$ HA
    iintro HA
    ihave HK' := HK $$ [HA HR]
    · isplitl [HA]; · iexists f; iexact HA
      iexact HR
    iapply HK') (BIClass.forall_intro H)

theorem st_storeSB (c : Dev nD) (k : Fin 8) (g : ℕ) {hst} {hmk} {α : Type} {Q : α → sProp 𝕄} {k' : PUnit → Prog (TpuEff nD τ sig (Elt F) Λ₀ .tc) α}
    (H : St m K c (g + 1) ⊢ WP c (k' ⟨⟩) Q)
    (h : Move g (g + 1) 1 k 0 1 ∧ started (g + 1) = started g := by decide) :
    St m K c g ⊢ WP c (.op (.store sbM (slotRect k) (sbPay (xL m c k) (r1L m c k)) Finset.univ hst hmk) k') Q :=
  St_local m K c 1 k g h (by
    rw [seg1_0, seg1_1]
    iintro ⟨⟨%f, HA⟩, HR⟩ HK
    rw [← sb_written m c k f]
    iapply (wp_store 𝒱₀ (c : Thread nD τ) none Set.univ (m := sbM) (r := slotRect k) (S := (sbSl k).view.set) (f := f) (sbSl_set k).ge) $$ HA
    iintro HA
    iapply HK
    iframe HA HR) H

theorem st_loadSB (c : Dev nD) (k : Fin 8) (g : ℕ) {hld} {α : Type} {Q : α → sProp 𝕄} {k' : Vec F S1x16x256 .f32 → Prog (TpuEff nD τ sig (Elt F) Λ₀ .tc) α}
    (H : St m K c (g + 1) ⊢ WP c (k' (sbL m c k)) Q)
    (h : Move g (g + 1) 1 k 4 4 ∧ started (g + 1) = started g := by decide) :
    St m K c g ⊢ WP c (.op (.load sbM (slotRect k).toLoadRect hld) k') Q :=
  St_local m K c 1 k g h (by
    rw [seg1_4]
    iintro ⟨HA, HR⟩ HK
    iapply (wp_load_rect 𝒱₀ (c : Thread nD τ) none Set.univ (m := sbM) (r := slotRect k) (S := (sbSl k).view.set) (q := fullShare) (f := sbC m c k) (sbSl_set k).ge) $$ HA
    iintro HA
    iapply HK
    iframe HA HR) H

theorem st_loadR2 (c : Dev nD) (k : Fin 8) (g : ℕ) {hld} {α : Type} {Q : α → sProp 𝕄} {k' : Vec F S1x16x256 .f32 → Prog (TpuEff nD τ sig (Elt F) Λ₀ .tc) α}
    (H : St m K c (g + 1) ⊢ WP c (k' (r2L m c k)) Q)
    (h : Move g (g + 1) 1 k 4 4 ∧ started (g + 1) = started g := by decide) :
    St m K c g ⊢ WP c (.op (.load r2M (slotRect k).toLoadRect hld) k') Q :=
  St_local m K c 1 k g h (by
    rw [seg1_4]
    iintro ⟨HA, HD, HB, HE⟩ HK
    iapply (wp_load_rect 𝒱₀ (c : Thread nD τ) none Set.univ (m := r2M) (r := slotRect k) (S := (r2Sl k).view.set) (q := fullShare) (f := r2C m c k) (r2Sl_set k).ge) $$ HB
    iintro HB
    iapply HK
    iframe HA HD HB HE) H

theorem st_loadO (c : Dev nD) (k : Fin 8) (g : ℕ) {hld} {α : Type} {Q : α → sProp 𝕄} {k' : Vec F S16x256 .f32 → Prog (TpuEff nD τ sig (Elt F) Λ₀ .tc) α}
    (H : ∀ v, St m K c (g + 1) ⊢ WP c (k' v) Q)
    (h : Move g (g + 1) 2 k 0 0 ∧ started (g + 1) = started g := by decide) :
    St m K c g ⊢ WP c (.op (.load oM (rowRect2 c k).toLoadRect hld) k') Q :=
  St_local m K c 2 k g h (by
    rw [seg2_0]
    iintro ⟨⟨%f, HA⟩, HR⟩ HK
    iapply (wp_load_rect 𝒱₀ (c : Thread nD τ) none Set.univ (m := oM) (r := rowRect2 c k) (S := (oSl c k).view.set) (q := fullShare) (f := f) (oSl_set c k).ge) $$ HA
    iintro HA
    ihave HK' := HK $$ [HA HR]
    · isplitl [HA]; · iexists f; iexact HA
      iexact HR
    iapply HK') (BIClass.forall_intro H)

theorem st_storeO (c : Dev nD) (k : Fin 8) (g : ℕ) {hst} {hmk} {α : Type} {Q : α → sProp 𝕄} {k' : PUnit → Prog (TpuEff nD τ sig (Elt F) Λ₀ .tc) α}
    (H : St m K c (g + 1) ⊢ WP c (k' ⟨⟩) Q)
    (h : Move g (g + 1) 2 k 0 1 ∧ started (g + 1) = started g := by decide) :
    St m K c g ⊢ WP c (.op (.store oM (rowRect2 c k) (oVal m c k) Finset.univ hst hmk) k') Q :=
  St_local m K c 2 k g h (by
    rw [seg2_0, seg2_1]
    iintro ⟨⟨%f, HA⟩, HR⟩ HK
    rw [← o_written m c k f]
    iapply (wp_store 𝒱₀ (c : Thread nD τ) none Set.univ (m := oM) (r := rowRect2 c k) (S := (oSl c k).view.set) (f := f) (oSl_set c k).ge) $$ HA
    iintro HA
    iapply HK
    iframe HA HR) H

end Cert.KernelIdeal.Rules

end
-- ==== Proof.Cuts.lean ====
import proofs.«900728_g7700000000000729_dist_ar_v7x_xyz2x4x4_y_m256_n256_f32_1_alg».proof.Proof.State
import proofs.«900728_g7700000000000729_dist_ar_v7x_xyz2x4x4_y_m256_n256_f32_1_alg».proof.Proof.Mesh
import Idealize.ShloMosaic.Lib.Ring

noncomputable section

namespace Cert.KernelIdeal.Cuts

open Cert.KernelIdeal Cert.KernelIdeal.Gen Cert.KernelIdeal.Mesh Cert.KernelIdeal.Proto Cert.KernelIdeal.State

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev whole (c : Dev nD) (b : Ref sig .tc) (f : Buf (Elt F) ((c : Thread nD τ).loc b)) : sProp 𝕄 :=
  ((c : Thread nD τ).loc b) ↦{fullShare} f

theorem rowRect_mem (c : Dev nD) (k : Fin 8) (i : S256x256.Idx) :
    i ∈ (rowRect c k).set ↔ 128 * (c.val / 16) + 16 * k.val ≤ (i 0).val ∧ (i 0).val < 128 * (c.val / 16) + 16 * k.val + 16 := by
  rw [Rect.mem_set_unit, Gen.k0_off1_eq, Fin.forall_fin_two]
  have h1 : (i 1).val < 256 := (i 1).isLt
  simp only [Matrix.cons_val_zero, Matrix.cons_val_one]
  omega

theorem rowRect2_set (c : Dev nD) (k : Fin 8) : (rowRect2 c k).set = (rowRect c k).set := by rw [rowRect_eq]

theorem xSl_set (c : Dev nD) (k : Fin 8) : (xSl c k).view.set = (rowRect c k).set := View.set_slice_whole _ _
theorem oSl_set (c : Dev nD) (k : Fin 8) : (oSl c k).view.set = (rowRect c k).set := View.set_slice_whole _ _
theorem row2_set_o (c : Dev nD) (k : Fin 8) :
    (oM.access (rowRect2 c k)).set = (oSl c k).view.set := (View.set_slice_whole _ _).trans ((rowRect2_set c k).trans (oSl_set c k).symm)

theorem rowRect_disjoint (c : Dev nD) {k k' : Fin 8} (h : k ≠ k') : Disjoint (rowRect c k).set (rowRect c k').set := by
  rw [Finset.disjoint_left]
  intro i hi hi'
  rw [rowRect_mem] at hi hi'
  have : k.val ≠ k'.val := fun e => h (Fin.ext e)
  omega

theorem rowRect_disjoint_half (c : Dev nD) (k k' : Fin 8) : Disjoint (rowRect c k).set (rowRect (peer 2 c) k').set := by
  rw [Finset.disjoint_left]
  intro i hi hi'
  rw [rowRect_mem] at hi hi'
  have h2 := half_peer2 c
  have h1 := half_le c
  have hk := k.isLt
  have hk' := k'.isLt
  omega

theorem rowRect_cover (c : Dev nD) :
    (Finset.univ.biUnion fun k : Fin 8 => (rowRect c k).set) ∪ (Finset.univ.biUnion fun k : Fin 8 => (rowRect (peer 2 c) k).set) = Finset.univ := by
  ext i
  simp only [Finset.mem_union, Finset.mem_biUnion, Finset.mem_univ, true_and, iff_true, rowRect_mem]
  have h2 := half_peer2 c
  have h1 := half_le c
  have hi : (i 0).val < 256 := (i 0).isLt
  by_cases hh : (i 0).val / 128 = c.val / 16
  · refine .inl ⟨⟨((i 0).val % 128) / 16, by omega⟩, ?_⟩
    show 128 * (c.val / 16) + 16 * ((i 0).val % 128 / 16) ≤ (i 0).val ∧ (i 0).val < 128 * (c.val / 16) + 16 * ((i 0).val % 128 / 16) + 16
    omega
  · refine .inr ⟨⟨((i 0).val % 128) / 16, by omega⟩, ?_⟩
    show 128 * ((peer 2 c).val / 16) + 16 * ((i 0).val % 128 / 16) ≤ (i 0).val ∧ (i 0).val < 128 * ((peer 2 c).val / 16) + 16 * ((i 0).val % 128 / 16) + 16
    omega

theorem oSl_disjoint (c : Dev nD) {k k' : Fin 8} (h : k ≠ k') : Disjoint (oSl c k).view.set (oSl c k').view.set := by rw [oSl_set, oSl_set]; exact rowRect_disjoint c h
theorem oSl_disjoint_half (c : Dev nD) (k k' : Fin 8) : Disjoint (oSl c k).view.set (oSl (peer 2 c) k').view.set := by rw [oSl_set, oSl_set]; exact rowRect_disjoint_half c k k'

theorem slotRect_mem (k : Fin 8) (i : S8x16x256.Idx) : i ∈ (slotRect k).set ↔ (i 0).val = k.val := by
  rw [Rect.mem_set_unit]
  have h1 : (i 1).val < 16 := (i 1).isLt
  have h2 : (i 2).val < 256 := (i 2).isLt
  constructor
  · intro h
    have h0 : k.val ≤ (i 0).val ∧ (i 0).val < k.val + 1 := h 0
    omega
  · intro h a
    fin_cases a
    · show k.val ≤ (i 0).val ∧ (i 0).val < k.val + 1; omega
    · show 0 ≤ (i 1).val ∧ (i 1).val < 0 + 16; omega
    · show 0 ≤ (i 2).val ∧ (i 2).val < 0 + 256; omega
theorem slotRect_disjoint {k k' : Fin 8} (h : k ≠ k') : Disjoint (slotRect k).set (slotRect k').set := by
  rw [Finset.disjoint_left]
  intro i hi hi'
  rw [slotRect_mem] at hi hi'
  exact h (Fin.ext (by omega))
theorem slotRect_cover : (Finset.univ.biUnion fun k : Fin 8 => (slotRect k).set) = Finset.univ := by
  ext i
  simp only [Finset.mem_biUnion, Finset.mem_univ, true_and, iff_true, slotRect_mem]
  exact ⟨⟨(i 0).val, (i 0).isLt⟩, rfl⟩
theorem r1Sl_set (k : Fin 8) : (r1Sl k).view.set = (slotRect k).set := (View.set_reshape _ _).trans (View.set_slice_whole _ _)
theorem r2Sl_set (k : Fin 8) : (r2Sl k).view.set = (slotRect k).set := (View.set_reshape _ _).trans (View.set_slice_whole _ _)
theorem sbSl_set (k : Fin 8) : (sbSl k).view.set = (slotRect k).set := (View.set_reshape _ _).trans (View.set_slice_whole _ _)

theorem x_cut_eq (c : Dev nD) (f : Buf (Elt F) ((c : Thread nD τ).loc cc0_stg0_0)) :
    (whole c cc0_stg0_0 f : sProp 𝕄) = iprop((bigSep Finset.univ fun k : Fin 8 => sl (xSl c k) c f)
      ∗ (xM.view.loc (c : Thread nD τ) ↦[xM.view.set \ ownHalf c]{fullShare} f)) := by
  have hown : ownHalf c = Finset.univ.biUnion fun k : Fin 8 => (rowRect c k).set := by
    unfold ownHalf
    exact Finset.biUnion_congr rfl fun k _ => xSl_set c k
  have hsub : (Finset.univ.biUnion fun k : Fin 8 => (rowRect c k).set) ⊆ (Finset.univ : Finset S256x256.Idx) := Finset.subset_univ _
  have h := pointsTo_split_subset (Val := Elt F) (Ix := Unit) (Name := ℕ) (U := UU) (Lvl := ℕ) (ℓ := (c : Thread nD τ).loc cc0_stg0_0) (q := fullShare) (f := f) hsub
  have hb := pointsTo_biUnion (Val := Elt F) (Ix := Unit) (Name := ℕ) (U := UU) (Lvl := ℕ) (ℓ := (c : Thread nD τ).loc cc0_stg0_0) (q := fullShare) (f := f) Finset.univ
    (fun k : Fin 8 => (rowRect c k).set) (fun k _ k' _ hk => rowRect_disjoint c hk)
  have e1 : (bigSep Finset.univ fun k : Fin 8 => (((c : Thread nD τ).loc cc0_stg0_0) ↦[(rowRect c k).set]{fullShare} f : sProp 𝕄))
      = bigSep Finset.univ fun k : Fin 8 => sl (xSl c k) c f :=
    bigSep_congr fun k _ => by
      show _ = ((xSl c k).view.loc (c : Thread nD τ) ↦[(xSl c k).view.set]{fullShare} f)
      rw [xSl_set]
  have e2 : ((((c : Thread nD τ).loc cc0_stg0_0) ↦[Finset.univ \ Finset.univ.biUnion fun k : Fin 8 => (rowRect c k).set]{fullShare} f) : sProp 𝕄)
      = (xM.view.loc (c : Thread nD τ) ↦[xM.view.set \ ownHalf c]{fullShare} f) := by
    rw [hown, show xM.view.set = Finset.univ from View.set_whole _]
  rw [← e1, ← e2, ← hb]
  exact BI.equiv_iff.mp ⟨h.1, h.2⟩
theorem o_cut_eq (c : Dev nD) (f : Buf (Elt F) ((c : Thread nD τ).loc cc0_stg1_0)) :
    (whole c cc0_stg1_0 f : sProp 𝕄) = iprop((bigSep Finset.univ fun k : Fin 8 => sl (oSl c k) c f)
      ∗ (bigSep Finset.univ fun k : Fin 8 => sl (oSl (peer 2 c) k) c f)) := by
  have hb1 := pointsTo_biUnion (Val := Elt F) (Ix := Unit) (Name := ℕ) (U := UU) (Lvl := ℕ) (ℓ := (c : Thread nD τ).loc cc0_stg1_0) (q := fullShare) (f := f) Finset.univ
    (fun k : Fin 8 => (rowRect c k).set) (fun k _ k' _ hk => rowRect_disjoint c hk)
  have hb2 := pointsTo_biUnion (Val := Elt F) (Ix := Unit) (Name := ℕ) (U := UU) (Lvl := ℕ) (ℓ := (c : Thread nD τ).loc cc0_stg1_0) (q := fullShare) (f := f) Finset.univ
    (fun k : Fin 8 => (rowRect (peer 2 c) k).set) (fun k _ k' _ hk => rowRect_disjoint (peer 2 c) hk)
  have hd : Disjoint (Finset.univ.biUnion fun k : Fin 8 => (rowRect c k).set) (Finset.univ.biUnion fun k : Fin 8 => (rowRect (peer 2 c) k).set) :=
    (Finset.disjoint_biUnion_left _ _ _).mpr fun k _ => (Finset.disjoint_biUnion_right _ _ _).mpr fun k' _ => rowRect_disjoint_half c k k'
  have hu := pointsTo_union (Val := Elt F) (Ix := Unit) (Name := ℕ) (U := UU) (Lvl := ℕ) (ℓ := (c : Thread nD τ).loc cc0_stg1_0) (q := fullShare) (f := f) hd
  have e1 : (bigSep Finset.univ fun k : Fin 8 => (((c : Thread nD τ).loc cc0_stg1_0) ↦[(rowRect c k).set]{fullShare} f : sProp 𝕄))
      = bigSep Finset.univ fun k : Fin 8 => sl (oSl c k) c f :=
    bigSep_congr fun k _ => by
      show _ = ((oSl c k).view.loc (c : Thread nD τ) ↦[(oSl c k).view.set]{fullShare} f)
      rw [oSl_set]
  have e2 : (bigSep Finset.univ fun k : Fin 8 => (((c : Thread nD τ).loc cc0_stg1_0) ↦[(rowRect (peer 2 c) k).set]{fullShare} f : sProp 𝕄))
      = bigSep Finset.univ fun k : Fin 8 => sl (oSl (peer 2 c) k) c f :=
    bigSep_congr fun k _ => by
      show _ = ((oSl (peer 2 c) k).view.loc (c : Thread nD τ) ↦[(oSl (peer 2 c) k).view.set]{fullShare} f)
      rw [oSl_set]
  rw [← e1, ← e2, ← hb1, ← hb2]
  refine Eq.trans ?_ (BI.equiv_iff.mp ⟨hu.1, hu.2⟩)
  show ((((c : Thread nD τ).loc cc0_stg1_0) ↦[Finset.univ]{fullShare} f) : sProp 𝕄) = _
  rw [rowRect_cover]
theorem r1_cut_eq (c : Dev nD) (f : Buf (Elt F) ((c : Thread nD τ).loc cc0_scratch0)) :
    (whole c cc0_scratch0 f : sProp 𝕄) = bigSep Finset.univ fun k : Fin 8 => sl (r1Sl k) c f := by
  have h := Ring.pointsTo_blocks (Val := Elt F) (Ix := Unit) (Name := ℕ) (U := UU) (Lvl := ℕ) (ℓ := (c : Thread nD τ).loc cc0_scratch0)
    (fun k : Fin 8 => (slotRect k).set) (fun k k' h => slotRect_disjoint h) slotRect_cover (q := fullShare) f
  refine h.trans ?_
  refine bigSep_congr fun k _ => ?_
  show _ = ((r1Sl k).view.loc (c : Thread nD τ) ↦[(r1Sl k).view.set]{fullShare} f)
  rw [r1Sl_set]
theorem r2_cut_eq (c : Dev nD) (f : Buf (Elt F) ((c : Thread nD τ).loc cc0_scratch1)) :
    (whole c cc0_scratch1 f : sProp 𝕄) = bigSep Finset.univ fun k : Fin 8 => sl (r2Sl k) c f := by
  have h := Ring.pointsTo_blocks (Val := Elt F) (Ix := Unit) (Name := ℕ) (U := UU) (Lvl := ℕ) (ℓ := (c : Thread nD τ).loc cc0_scratch1)
    (fun k : Fin 8 => (slotRect k).set) (fun k k' h => slotRect_disjoint h) slotRect_cover (q := fullShare) f
  refine h.trans ?_
  refine bigSep_congr fun k _ => ?_
  show _ = ((r2Sl k).view.loc (c : Thread nD τ) ↦[(r2Sl k).view.set]{fullShare} f)
  rw [r2Sl_set]
theorem sb_cut_eq (c : Dev nD) (f : Buf (Elt F) ((c : Thread nD τ).loc cc0_scratch2)) :
    (whole c cc0_scratch2 f : sProp 𝕄) = bigSep Finset.univ fun k : Fin 8 => sl (sbSl k) c f := by
  have h := Ring.pointsTo_blocks (Val := Elt F) (Ix := Unit) (Name := ℕ) (U := UU) (Lvl := ℕ) (ℓ := (c : Thread nD τ).loc cc0_scratch2)
    (fun k : Fin 8 => (slotRect k).set) (fun k k' h => slotRect_disjoint h) slotRect_cover (q := fullShare) f
  refine h.trans ?_
  refine bigSep_congr fun k _ => ?_
  show _ = ((sbSl k).view.loc (c : Thread nD τ) ↦[(sbSl k).view.set]{fullShare} f)
  rw [sbSl_set]

include m in
theorem r1_join_any (c : Dev nD) :
    (bigSep Finset.univ fun k : Fin 8 => (iprop(∃ f, sl (r1Sl k) c f) : sProp 𝕄)) ⊢ anyBuf c cc0_scratch0 := by
  have h := Ring.pointsTo_blocks_join_exists (Val := Elt F) (Ix := Unit) (Name := ℕ) (U := UU) (Lvl := ℕ) (ℓ := (c : Thread nD τ).loc cc0_scratch0)
    (fun k : Fin 8 => (slotRect k).set) (fun k k' h => slotRect_disjoint h) slotRect_cover (q := fullShare) (m _)
  refine Entails.trans (Entails.of_eq ?_) h
  refine bigSep_congr fun k _ => ?_
  show iprop(∃ f, (r1Sl k).view.loc (c : Thread nD τ) ↦[(r1Sl k).view.set]{fullShare} f) = _
  rw [r1Sl_set]
include m in
theorem r2_join_any (c : Dev nD) :
    (bigSep Finset.univ fun k : Fin 8 => (iprop(∃ f, sl (r2Sl k) c f) : sProp 𝕄)) ⊢ anyBuf c cc0_scratch1 := by
  have h := Ring.pointsTo_blocks_join_exists (Val := Elt F) (Ix := Unit) (Name := ℕ) (U := UU) (Lvl := ℕ) (ℓ := (c : Thread nD τ).loc cc0_scratch1)
    (fun k : Fin 8 => (slotRect k).set) (fun k k' h => slotRect_disjoint h) slotRect_cover (q := fullShare) (m _)
  refine Entails.trans (Entails.of_eq ?_) h
  refine bigSep_congr fun k _ => ?_
  show iprop(∃ f, (r2Sl k).view.loc (c : Thread nD τ) ↦[(r2Sl k).view.set]{fullShare} f) = _
  rw [r2Sl_set]
include m in
theorem sb_join_any (c : Dev nD) :
    (bigSep Finset.univ fun k : Fin 8 => (iprop(∃ f, sl (sbSl k) c f) : sProp 𝕄)) ⊢ anyBuf c cc0_scratch2 := by
  have h := Ring.pointsTo_blocks_join_exists (Val := Elt F) (Ix := Unit) (Name := ℕ) (U := UU) (Lvl := ℕ) (ℓ := (c : Thread nD τ).loc cc0_scratch2)
    (fun k : Fin 8 => (slotRect k).set) (fun k k' h => slotRect_disjoint h) slotRect_cover (q := fullShare) (m _)
  refine Entails.trans (Entails.of_eq ?_) h
  refine bigSep_congr fun k _ => ?_
  show iprop(∃ f, (sbSl k).view.loc (c : Thread nD τ) ↦[(sbSl k).view.set]{fullShare} f) = _
  rw [sbSl_set]

end Cert.KernelIdeal.Cuts

end
-- ==== Proof.Pre.lean ====
import proofs.«900728_g7700000000000729_dist_ar_v7x_xyz2x4x4_y_m256_n256_f32_1_alg».proof.Proof.BodyDefs
import proofs.«900728_g7700000000000729_dist_ar_v7x_xyz2x4x4_y_m256_n256_f32_1_alg».proof.Proof.Gen.KernelIdeal.Points

noncomputable section

namespace Cert.KernelIdeal.Pre

open Cert.KernelIdeal Cert.KernelIdeal.Gen Cert.KernelIdeal.Mesh Cert.KernelIdeal.Proto Cert.KernelIdeal.State Cert.KernelIdeal.BodyDefs

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem before_x (c : Dev nD) (d : (cfg0.win (0 : Fin 2)).block.Idx → Elt F (cfg0.win (0 : Fin 2)).elt) :
    (dats m ρ 0 c).before (0 : Fin 2) t₀ d = xsC m c := by
  unfold Dat.before
  rw [if_pos (Gen.fetch0_0 t₀)]
  rfl

end Cert.KernelIdeal.Pre

end
-- ==== Proof.Entry.lean ====
import proofs.«900728_g7700000000000729_dist_ar_v7x_xyz2x4x4_y_m256_n256_f32_1_alg».proof.Proof.Rules
import proofs.«900728_g7700000000000729_dist_ar_v7x_xyz2x4x4_y_m256_n256_f32_1_alg».proof.Proof.Cuts
import proofs.«900728_g7700000000000729_dist_ar_v7x_xyz2x4x4_y_m256_n256_f32_1_alg».proof.Proof.Pre
import Idealize.ShloMosaic.Lib.Rounds
import Idealize.ShloMosaic.Lib.Ring
import Idealize.ShloMosaic.Lib.ReshapeSlab

noncomputable section

namespace Cert.KernelIdeal.Entry

open Cert.KernelIdeal Cert.KernelIdeal.Gen Cert.KernelIdeal.Mesh Cert.KernelIdeal.Proto Cert.KernelIdeal.State Cert.KernelIdeal.Levels Cert.KernelIdeal.BodyDefs Cert.KernelIdeal.Sched Cert.KernelIdeal.Steps Cert.KernelIdeal.Rules Cert.KernelIdeal.Cuts Cert.KernelIdeal.Pre

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CIx → ℕ)

def toks (c : Dev nD) (p : Fin 3) : sProp 𝕄 :=
  bigSep Finset.univ fun k : Fin 8 =>
    iprop(dutyTok ER (recvCell (peer p c) (jOf p k)) 0 (0 : Fin 3) ∗ dutyTok ER (sendCell c (jOf p k)) 0 (0 : Fin 3)
      ∗ atPos ER (sendCell c (jOf p k)) 0 ∅ 0)

def rps (c : Dev nD) (p : Fin 3) : sProp 𝕄 := bigSep Finset.univ fun k : Fin 8 => rpend c (jOf p k)

def land (c : Dev nD) (p : Fin 3) : sProp 𝕄 := bigSep Finset.univ fun k : Fin 8 => iprop(∃ f, sl (dstSl p c k) (peer p c) f)

def give (c : Dev nD) (p : Fin 3) : sProp 𝕄 := bigSep Finset.univ fun k : Fin 8 => iprop(∃ f, sl (dstSl p (peer p c) k) c f)

def D0 (c : Dev nD) : sProp 𝕄 := bigSep Finset.univ fun k : Fin 8 => sl (xSl c k) c (xsC m c)
def D1 (c : Dev nD) : sProp 𝕄 := bigSep Finset.univ fun k : Fin 8 => iprop(∃ f, sl (sbSl k) c f)
def D2 (c : Dev nD) : sProp 𝕄 := bigSep Finset.univ fun k : Fin 8 => iprop(∃ f, sl (oSl c k) c f)

def Core (c : Dev nD) : sProp 𝕄 :=
  iprop(records m K ∗ levAts L lv ∗ xRest m c ∗ cred (tallyAt (barCell c) () 3) ∗ atPos ER (barCell c) 0 ∅ 0
    ∗ D0 m c ∗ D1 c ∗ D2 c ∗ (toks c 0 ∗ rps c 0) ∗ (toks c 1 ∗ rps c 1) ∗ (toks c 2 ∗ rps c 2))

def Flat (c : Dev nD) : sProp 𝕄 :=
  iprop(Core m K c ∗ (∃ W, owes (c : Thread nD τ) (O₀ c) W)
    ∗ (dutyTok ER (barCell (peer 0 c)) 0 (0 : Fin 3) ∗ give c 0)
    ∗ (dutyTok ER (barCell (peer 1 c)) 0 (1 : Fin 3) ∗ give c 1)
    ∗ (dutyTok ER (barCell (peer 2 c)) 0 (2 : Fin 3) ∗ give c 2))

def Mid (c : Dev nD) : sProp 𝕄 :=
  iprop(Core m K c ∗ (∃ W, owes (c : Thread nD τ) (owedFrom c 0 + tallyAt (barCell (peer 2 c)) () 1) W)
    ∗ dutyTok ER (barCell (peer 2 c)) 0 (2 : Fin 3) ∗ give c 2)

theorem barPay_of_give (c : Dev nD) (p : Fin 3) : iprop(records m K ∗ give c p) ⊢ barPay (F := F) (peer p c) p := by
  unfold barPay give
  rw [peer_peer]
  refine bigSep_with_persistent fun k _ => ?_
  iintro ⟨#Hrec, H⟩
  isplitl [H]; · iexact H
  iapply (records_reached m K (c, some (true, jOf p k))) $$ Hrec

theorem bigSep_CIx {M : Type _} [URA M] (Φ : CIx → sProp M) :
    bigSep Finset.univ Φ = iprop(Φ none ∗ (bigSep Finset.univ fun j : Fin 24 => Φ (some (false, j))) ∗ (bigSep Finset.univ fun j : Fin 24 => Φ (some (true, j)))) := by
  rw [bigSep_option, bigSep_cells]

theorem toks_intro (c : Dev nD) (p : Fin 3) :
    iprop((bigSep Finset.univ fun k : Fin 8 => dutyTok ER (recvCell (peer p c) (jOf p k)) 0 (0 : Fin 3))
      ∗ (bigSep Finset.univ fun k : Fin 8 => dutyTok ER (sendCell c (jOf p k)) 0 (0 : Fin 3))
      ∗ (bigSep Finset.univ fun k : Fin 8 => atPos ER (sendCell c (jOf p k)) 0 ∅ 0)) ⊢ (toks c p : sProp 𝕄) := by
  unfold toks
  rw [bigSep_sep', bigSep_sep']

theorem rps_intro (c : Dev nD) (p : Fin 3) :
    iprop((bigSep Finset.univ fun k : Fin 8 => cred (tallyAt (recvCell c (jOf p k)) () N))
      ∗ (bigSep Finset.univ fun k : Fin 8 => atPos ER (recvCell c (jOf p k)) 0 ∅ 0)) ⊢ (rps c p : sProp 𝕄) := by
  unfold rps rpend
  rw [bigSep_sep']

theorem give0_intro (c : Dev nD) (f) : (Cuts.whole c cc0_scratch0 f : sProp 𝕄) ⊢ give c 0 := by
  refine (Entails.of_eq (r1_cut_eq c f)).trans ?_
  unfold give
  exact bigSep_mono fun k _ => exists_intro (Φ := fun f => sl (r1Sl k) c f) f

theorem give1_intro (c : Dev nD) (f) : (Cuts.whole c cc0_scratch1 f : sProp 𝕄) ⊢ give c 1 := by
  refine (Entails.of_eq (r2_cut_eq c f)).trans ?_
  unfold give
  exact bigSep_mono fun k _ => exists_intro (Φ := fun f => sl (r2Sl k) c f) f

theorem D1_intro (c : Dev nD) (f) : (Cuts.whole c cc0_scratch2 f : sProp 𝕄) ⊢ D1 c := by
  refine (Entails.of_eq (sb_cut_eq c f)).trans ?_
  unfold D1
  exact bigSep_mono fun k _ => exists_intro (Φ := fun f => sl (sbSl k) c f) f

theorem o_intro (c : Dev nD) (f) : (Cuts.whole c cc0_stg1_0 f : sProp 𝕄) ⊢ iprop(D2 c ∗ give c 2) := by
  refine (Entails.of_eq (o_cut_eq c f)).trans ?_
  unfold D2 give
  exact BI.sep_mono (bigSep_mono fun k _ => exists_intro (Φ := fun f => sl (oSl c k) c f) f)
    (bigSep_mono fun k _ => exists_intro (Φ := fun f => sl (oSl (peer 2 c) k) c f) f)

theorem x_intro (c : Dev nD) : (Cuts.whole c cc0_stg0_0 (xsC m c) : sProp 𝕄) ⊢ iprop(D0 m c ∗ xRest m c) := by
  unfold D0 xRest
  exact Entails.of_eq (x_cut_eq c (xsC m c))

theorem open_pre (c : Dev nD) : bodyPre m ρ K c ⊢ Flat m K c := by
  unfold bodyPre ghost linear positions payToks scratch Flat Core
  simp only [bigSep_CIx, bigSep_fin24, bigSep_fin3', phaseOf_jOf]
  iintro ⟨⟨⟨Hrec, ⟨Hatb, ⟨HPS0, HPS1, HPS2⟩, ⟨HPR0, HPR1, HPR2⟩⟩, ⟨Htb0, Htb1, Htb2⟩, ⟨HTR0, HTR1, HTR2⟩, ⟨HTS0, HTS1, HTS2⟩⟩, Hcb, ⟨HCR0, HCR1, HCR2⟩, Hlev, ⟨%f0, Ha0⟩, ⟨%f1, Ha1⟩, ⟨%f2, Ha2⟩⟩,
    ⟨%W, -, HL⟩, ⟨%dx, %fx, %hfx, Hx⟩, ⟨%do_, %fo, -, Ho⟩⟩
  subst hfx
  rw [before_x m ρ c dx]
  ihave Hx' := (x_intro m c) $$ Hx
  icases Hx' with ⟨HD0, Hxr⟩
  ihave Ho' := (o_intro c fo) $$ Ho
  icases Ho' with ⟨HD2, Hg2⟩
  ihave Hg0 := (give0_intro c f0) $$ Ha0
  ihave Hg1 := (give1_intro c f1) $$ Ha1
  ihave HD1 := (D1_intro c f2) $$ Ha2
  ihave Ht0 := (toks_intro c 0) $$ [HTR0 HTS0 HPS0]
  · iframe
  ihave Ht1 := (toks_intro c 1) $$ [HTR1 HTS1 HPS1]
  · iframe
  ihave Ht2 := (toks_intro c 2) $$ [HTR2 HTS2 HPS2]
  · iframe
  ihave Hr0 := (rps_intro c 0) $$ [HCR0 HPR0]
  · iframe
  ihave Hr1 := (rps_intro c 1) $$ [HCR1 HPR1]
  · iframe
  ihave Hr2 := (rps_intro c 2) $$ [HCR2 HPR2]
  · iframe
  isplitl [Hrec Hlev Hxr Hcb Hatb HD0 HD1 HD2 Ht0 Hr0 Ht1 Hr1 Ht2 Hr2]
  · iframe
  isplitl [HL]; · iexists W; iexact HL
  iframe

theorem part1 (c : Dev nD) (Kt : (Σ' (d0 : Dev nD) (v2 : BitVec 32) (v5 : BitVec 32) (v8 : BitVec 32) (v9 : BitVec 32) (v10 : BitVec 32) (v11 : BitVec 32) (v12 : BitVec 32), Sems sig S_) → sProp 𝕄)
    (H : ∀ v2 v5 v8 v9 v10 v11 v12, Mid m K c ⊢ Kt ⟨c, v2, v5, v8, v9, v10, v11, v12, SemArray.scalar (sig.barrier 0 rfl)⟩) :
    bodyPre m ρ K c ⊢ WP c (atBufs (k0_part1 (F := F))) Kt := by
  unfold atBufs
  iintro Hpre
  ihave Hf := (open_pre m ρ K c) $$ Hpre
  unfold Flat
  icases Hf with ⟨Hcore, ⟨%W, HL⟩, ⟨Ht0, Hg0⟩, ⟨Ht1, Hg1⟩, Hrest⟩
  ihave #Hrec : records m K $$ [Hcore]
  · unfold Core; icases Hcore with ⟨#H, -⟩; iexact H
  rw [k0_part1_eq_skeleton]
  unfold k0_part1_skel WP
  simp only [Prog.bind_lift, wp_deviceId, dev1_eq, dev2_eq]
  iapply (Rounds.wp_signal 𝒱₀ ER (sched m) (c : Thread nD τ) none (dst := ((peer 0 c : Dev nD) : Thread nD τ)) (sem := barS) (r := 0) (d := (0 : Fin 3))
    (κ := K (peer 0 c, none)) (by rw [duties_bar]; exact Finset.mem_univ _) (amount_bar m (peer 0 c) 0) ()
    ((owedFrom c 0 + tallyAt (barCell (peer 2 c)) () 1) + tallyAt (barCell (peer 1 c)) () 1) rfl) $$ [HL Ht0 Hg0]
  · isplitr; · iapply (records_inv m K (peer 0 c, none)) $$ Hrec
    isplitl [HL]; · iexact HL
    isplitl [Ht0]; · iexact Ht0
    isplitl [Hg0]
    · rw [payload_bar]; iapply (barPay_of_give m K c 0); isplitr; · iexact Hrec
      iexact Hg0
    iapply (records_reached m K (peer 0 c, none)) $$ Hrec
  iintro HL
  iapply (Rounds.wp_signal 𝒱₀ ER (sched m) (c : Thread nD τ) none (dst := ((peer 1 c : Dev nD) : Thread nD τ)) (sem := barS) (r := 0) (d := (1 : Fin 3))
    (κ := K (peer 1 c, none)) (by rw [duties_bar]; exact Finset.mem_univ _) (amount_bar m (peer 1 c) 1) ()
    (owedFrom c 0 + tallyAt (barCell (peer 2 c)) () 1) rfl) $$ [HL Ht1 Hg1]
  · isplitr; · iapply (records_inv m K (peer 1 c, none)) $$ Hrec
    isplitl [HL]; · iexact HL
    isplitl [Ht1]; · iexact Ht1
    isplitl [Hg1]
    · rw [payload_bar]; iapply (barPay_of_give m K c 1); isplitr; · iexact Hrec
      iexact Hg1
    iapply (records_reached m K (peer 1 c, none)) $$ Hrec
  iintro HL
  iapply (le_wp_ret _ _)
  iapply (H _ _ _ _ _ _ _)
  unfold Mid
  isplitl [Hcore]; · iexact Hcore
  isplitl [HL]; · iexists W; iexact HL
  iexact Hrest

theorem cnt_zero (l : List ℕ) : cnt 0 l = 0 := by
  unfold cnt
  rw [List.length_eq_zero_iff, List.filter_eq_nil_iff]
  intro a _
  simp

theorem stage0_zero (k : ℕ) : stage 0 0 k = 1 := by show 1 + cnt 0 _ = 1; rw [cnt_zero]
theorem stage1_zero (k : ℕ) : stage 1 0 k = 0 := cnt_zero _
theorem stage2_zero (k : ℕ) : stage 2 0 k = 0 := cnt_zero _

theorem segs_zero (c : Dev nD) : segs m c 0 = iprop((bigSep Finset.univ fun k : Fin 8 => seg m c 0 k 1)
    ∗ (bigSep Finset.univ fun k : Fin 8 => seg m c 1 k 0) ∗ (bigSep Finset.univ fun k : Fin 8 => seg m c 2 k 0)) := by
  unfold segs
  rw [bigSep_univ_prod, bigSep_fin3']
  simp only [stage0_zero, stage1_zero, stage2_zero]

theorem land_of_barPay (c : Dev nD) (p : Fin 3) : barPay (F := F) c p ⊢ land c p := by
  unfold barPay land
  exact bigSep_mono fun k _ => BI.sep_and.trans BI.and_elimL

theorem seg_intro (c : Dev nD) (p : Fin 3) (k : Fin 8) (a : ℕ) (S : sProp 𝕄)
    (h : seg m c p k a = iprop(S ∗ ready c p k ∗ rpend c (jOf p k))) :
    iprop(S ∗ (∃ f, sl (dstSl p c k) (peer p c) f)
      ∗ (dutyTok ER (recvCell (peer p c) (jOf p k)) 0 (0 : Fin 3) ∗ dutyTok ER (sendCell c (jOf p k)) 0 (0 : Fin 3) ∗ atPos ER (sendCell c (jOf p k)) 0 ∅ 0)
      ∗ rpend c (jOf p k)) ⊢ seg m c p k a := by
  rw [h]; unfold ready
  iintro ⟨Hd, Hl, ⟨Ht1, Ht2, Hat⟩, Hr⟩
  iframe

/-- The eight exchanges of pairing `p` at their first stage `a`, whose source slices are `S`. -/
theorem segs_intro (c : Dev nD) (p : Fin 3) (a : ℕ) (S : Fin 8 → sProp 𝕄)
    (h : ∀ k, seg m c p k a = iprop(S k ∗ ready c p k ∗ rpend c (jOf p k))) :
    iprop(bigSep Finset.univ S ∗ land c p ∗ toks c p ∗ rps c p) ⊢ bigSep Finset.univ fun k : Fin 8 => seg m c p k a := by
  unfold land toks rps
  rw [← bigSep_sep', ← bigSep_sep', ← bigSep_sep']
  exact bigSep_mono fun k _ => seg_intro m c p k a (S k) (h k)

theorem St0_intro (c : Dev nD) :
    iprop(records m K ∗ levAts L lv ∗ xRest m c ∗ (∃ W, owes (c : Thread nD τ) (owedFrom c 0) W)
      ∗ (D0 m c ∗ land c 0 ∗ toks c 0 ∗ rps c 0) ∗ (D1 c ∗ land c 1 ∗ toks c 1 ∗ rps c 1) ∗ (D2 c ∗ land c 2 ∗ toks c 2 ∗ rps c 2))
      ⊢ St m K c 0 := by
  unfold St D0 D1 D2
  rw [segs_zero, show started 0 = 0 from cnt_zero _]
  iintro ⟨Hrec, Hlev, Hx, HL, H0, H1, H2⟩
  ihave H0 := (segs_intro m c 0 1 (fun k => sl (xSl c k) c (xsC m c)) fun k => rfl) $$ H0
  ihave H1 := (segs_intro m c 1 0 (fun k => iprop(∃ f, sl (sbSl k) c f)) fun k => rfl) $$ H1
  ihave H2 := (segs_intro m c 2 0 (fun k => iprop(∃ f, sl (oSl c k) c f)) fun k => rfl) $$ H2
  iframe

theorem part2 (c : Dev nD) (v2 v8 v9 v12 : BitVec 32) (Kt : PUnit → sProp 𝕄) (H : St m K c 2 ⊢ Kt ⟨⟩) :
    Mid m K c ⊢ WP c (atBufs (k0_part2 (F := F)) c v2 v8 v9 v12 (SemArray.scalar (sig.barrier 0 rfl))) Kt := by
  unfold atBufs
  iintro Hmid
  unfold Mid
  icases Hmid with ⟨Hcore, ⟨%W, HL⟩, Ht2, Hg2⟩
  unfold Core
  icases Hcore with ⟨#Hrec, #Hlev, Hxr, Hcr, Hat, HD0, HD1, HD2, ⟨Htk0, Hrp0⟩, ⟨Htk1, Hrp1⟩, ⟨Htk2, Hrp2⟩⟩
  rw [k0_part2_eq_skeleton]
  unfold k0_part2_skel WP
  simp only [dev3_eq]
  iapply (Rounds.wp_signal 𝒱₀ ER (sched m) (c : Thread nD τ) none (dst := ((peer 2 c : Dev nD) : Thread nD τ)) (sem := barS) (r := 0) (d := (2 : Fin 3))
    (κ := K (peer 2 c, none)) (by rw [duties_bar]; exact Finset.mem_univ _) (amount_bar m (peer 2 c) 2) ()
    (owedFrom c 0) rfl) $$ [HL Ht2 Hg2]
  · isplitr; · iapply (records_inv m K (peer 2 c, none)) $$ Hrec
    isplitl [HL]; · iexact HL
    isplitl [Ht2]; · iexact Ht2
    isplitl [Hg2]
    · rw [payload_bar]; iapply (barPay_of_give m K c 2); isplitr; · iexact Hrec
      iexact Hg2
    iapply (records_reached m K (peer 2 c, none)) $$ Hrec
  iintro HL
  iapply (Rounds.wp_wait_rest_token 𝒱₀ ER (sched m) (c : Thread nD τ) none (wpE_semWait_eq 𝒱₀ (c : Thread nD τ) none Set.univ) (Set.mem_univ (K (c, none)))
    () (R := 0) (T := ∅) (m := 0) (by rw [expect_bar]; rfl)) $$ [HL Hcr Hat]
  · isplitr; · iapply (records_inv m K (c, none)) $$ Hrec
    isplitl [Hcr]; · iexact Hcr
    isplitl [HL]; · iexact HL
    isplitr; · iapply (mayWait_bar c) $$ Hlev
    iexact Hat
  iintro ⟨HL, -, -, Hpay⟩
  ihave Hpay' := (Entails.of_eq (rest_bar m c)) $$ Hpay
  icases Hpay' with ⟨Hp0, Hp1, Hp2⟩
  ihave Hl0 := (land_of_barPay c 0) $$ Hp0
  ihave Hl1 := (land_of_barPay c 1) $$ Hp1
  ihave Hl2 := (land_of_barPay c 2) $$ Hp2
  ihave HS := (St0_intro m K c) $$ [HL Hxr HD0 HD1 HD2 Htk0 Hrp0 Htk1 Hrp1 Htk2 Hrp2 Hl0 Hl1 Hl2]
  · isplitr; · iexact Hrec
    isplitr; · iexact Hlev
    isplitl [Hxr]; · iexact Hxr
    isplitl [HL]; · iexists _; iexact HL
    isplitl [HD0 Hl0 Htk0 Hrp0]; · iframe
    isplitl [HD1 Hl1 Htk1 Hrp1]; · iframe
    iframe
  iapply (st_send m K c _ 0 0 (dev_eq k0_dev4 c _) 0 <| st_send m K c _ 0 1 (dev_eq k0_dev5 c _) 1 <| st_ret c H) $$ HS

end Cert.KernelIdeal.Entry

end
-- ==== Proof.Parts1.lean ====
import proofs.«900728_g7700000000000729_dist_ar_v7x_xyz2x4x4_y_m256_n256_f32_1_alg».proof.Proof.Rules

noncomputable section

namespace Cert.KernelIdeal.Parts1

open Cert.KernelIdeal Cert.KernelIdeal.Gen Cert.KernelIdeal.Mesh Cert.KernelIdeal.Proto Cert.KernelIdeal.State Cert.KernelIdeal.Levels Cert.KernelIdeal.BodyDefs Cert.KernelIdeal.Sched Cert.KernelIdeal.Steps Cert.KernelIdeal.Rules

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CIx → ℕ)

theorem part3 (c : Dev nD) (v2 v8 v9 v12 : BitVec 32) (Kt : BitVec 32 → sProp 𝕄) (H : ∀ r, St m K c 4 ⊢ Kt r) :
    St m K c 2 ⊢ WP c (atBufs (k0_part3 (F := F)) c v2 v8 v9 v12) Kt := by
  unfold atBufs
  simp only [k0_part3_eq_skeleton]
  unfold k0_part3_skel
  simp only [Prog.lift, Prog.bind_op, Prog.bind_ret, Prog.pure_eq_ret]
  exact st_send m K c _ 0 2 (dev_eq k0_dev6 c _) 2 <| st_send m K c _ 0 3 (dev_eq k0_dev7 c _) 3 <| st_ret c (H _)

theorem part4 (c : Dev nD) (v2 v8 v9 v12 v92 : BitVec 32) (Kt : PUnit → sProp 𝕄) (H : St m K c 6 ⊢ Kt ⟨⟩) :
    St m K c 4 ⊢ WP c (atBufs (k0_part4 (F := F)) c v2 v8 v9 v12 v92) Kt := by
  unfold atBufs
  simp only [k0_part4_eq_skeleton]
  unfold k0_part4_skel
  simp only [Prog.lift, Prog.bind_op, Prog.bind_ret, Prog.pure_eq_ret]
  exact st_send m K c _ 0 4 (dev_eq k0_dev8 c _) 4 <| st_send m K c _ 0 5 (dev_eq k0_dev9 c _) 5 <| st_ret c H

theorem part5 (c : Dev nD) (v2 v8 v9 v12 : BitVec 32) (Kt : PUnit → sProp 𝕄) (H : St m K c 9 ⊢ Kt ⟨⟩) :
    St m K c 6 ⊢ WP c (atBufs (k0_part5 (F := F)) c v2 v8 v9 v12) Kt := by
  unfold atBufs
  simp only [k0_part5_eq_skeleton]
  unfold k0_part5_skel
  simp only [Prog.lift, Prog.bind_op, Prog.bind_ret, Prog.pure_eq_ret]
  exact st_send m K c _ 0 6 (dev_eq k0_dev10 c _) 6 <| st_send m K c _ 0 7 (dev_eq k0_dev11 c _) 7 <| st_waitSend m K c 0 0 8 <| st_ret c H

theorem part6 (c : Dev nD) (v2 v8 v10 v12 : BitVec 32) (Kt : PUnit → sProp 𝕄) (H : St m K c 15 ⊢ Kt ⟨⟩) :
    St m K c 9 ⊢ WP c (atBufs (k0_part6 (F := F)) c v2 v8 v10 v12) Kt := by
  unfold atBufs
  simp only [k0_part6_eq_skeleton]
  unfold k0_part6_skel
  simp only [Prog.lift, Prog.bind_op, Prog.bind_ret, Prog.pure_eq_ret]
  exact st_waitRecv m K c 0 0 9 <| st_loadX m K c 0 10 <| st_loadR1 m K c 0 11 <| st_loadSBany m K c 0 12 fun _ => st_storeSB m K c 0 13 <|
    st_send m K c _ 1 0 (dev_eq k0_dev12 c _) 14 <| st_ret c H

theorem part7 (c : Dev nD) (v2 v8 v9 v10 v12 : BitVec 32) (Kt : (Σ' (_ : BitVec 32), BitVec 32) → sProp 𝕄) (H : ∀ r s, St m K c 21 ⊢ Kt ⟨r, s⟩) :
    St m K c 15 ⊢ WP c (atBufs (k0_part7 (F := F)) c v2 v8 v9 v10 v12) Kt := by
  unfold atBufs
  simp only [k0_part7_eq_skeleton]
  unfold k0_part7_skel
  simp only [Prog.lift, Prog.bind_op, Prog.bind_ret, Prog.pure_eq_ret]
  exact st_waitSend m K c 0 1 15 <| st_waitRecv m K c 0 1 16 <| st_loadX m K c 1 17 <| st_loadR1 m K c 1 18 <| st_loadSBany m K c 1 19 fun _ =>
    st_storeSB m K c 1 20 <| st_ret c (H _ _)

theorem part8 (c : Dev nD) (v2 v8 v9 v12 v213 v214 : BitVec 32) (Kt : (Σ' (_ : FVec F S16x256 .f32), FVec F S16x256 .f32) → sProp 𝕄) (H : St m K c 26 ⊢ Kt ⟨k0_pay3 (xL m c 2), k0_pay4 (r1L m c 2)⟩) :
    St m K c 21 ⊢ WP c (atBufs (k0_part8 (F := F)) c v2 v8 v9 v12 v213 v214) Kt := by
  unfold atBufs
  simp only [k0_part8_eq_skeleton]
  unfold k0_part8_skel
  simp only [Prog.lift, Prog.bind_op, Prog.bind_ret, Prog.pure_eq_ret]
  exact st_send m K c _ 1 1 (dev_eq k0_dev13 c _) 21 <| st_waitSend m K c 0 2 22 <| st_waitRecv m K c 0 2 23 <| st_loadX m K c 2 24 <|
    st_loadR1 m K c 2 25 <| st_ret c H

theorem part9 (c : Dev nD) (v2 v8 v9 v10 : BitVec 32) (Kt : (Σ' (_ : BitVec 32), BitVec 32) → sProp 𝕄) (H : ∀ r s, St m K c 30 ⊢ Kt ⟨r, s⟩) :
    St m K c 26 ⊢ WP c (atBufs (k0_part9 (F := F)) c v2 v8 v9 v10 (k0_pay3 (xL m c 2)) (k0_pay4 (r1L m c 2))) Kt := by
  unfold atBufs
  simp only [k0_part9_eq_skeleton]
  unfold k0_part9_skel
  simp only [Prog.lift, Prog.bind_op, Prog.bind_ret, Prog.pure_eq_ret]
  exact st_loadSBany m K c 2 26 fun _ => st_storeSB m K c 2 27 <| st_send m K c _ 1 2 (dev_eq k0_dev14 c _) 28 <| st_waitSend m K c 0 3 29 <|
    st_ret c (H _ _)

theorem part10 (c : Dev nD) (v2 v8 v10 v12 v272 v273 : BitVec 32) (Kt : PUnit → sProp 𝕄) (H : St m K c 36 ⊢ Kt ⟨⟩) :
    St m K c 30 ⊢ WP c (atBufs (k0_part10 (F := F)) c v2 v8 v10 v12 v272 v273) Kt := by
  unfold atBufs
  simp only [k0_part10_eq_skeleton]
  unfold k0_part10_skel
  simp only [Prog.lift, Prog.bind_op, Prog.bind_ret, Prog.pure_eq_ret]
  exact st_waitRecv m K c 0 3 30 <| st_loadX m K c 3 31 <| st_loadR1 m K c 3 32 <| st_loadSBany m K c 3 33 fun _ => st_storeSB m K c 3 34 <|
    st_send m K c _ 1 3 (dev_eq k0_dev15 c _) 35 <| st_ret c H

theorem part11 (c : Dev nD) (v2 v8 v9 v10 v12 : BitVec 32) (Kt : (Σ' (_ : BitVec 32), BitVec 32) → sProp 𝕄) (H : ∀ r s, St m K c 42 ⊢ Kt ⟨r, s⟩) :
    St m K c 36 ⊢ WP c (atBufs (k0_part11 (F := F)) c v2 v8 v9 v10 v12) Kt := by
  unfold atBufs
  simp only [k0_part11_eq_skeleton]
  unfold k0_part11_skel
  simp only [Prog.lift, Prog.bind_op, Prog.bind_ret, Prog.pure_eq_ret]
  exact st_waitSend m K c 0 4 36 <| st_waitRecv m K c 0 4 37 <| st_loadX m K c 4 38 <| st_loadR1 m K c 4 39 <| st_loadSBany m K c 4 40 fun _ =>
    st_storeSB m K c 4 41 <| st_ret c (H _ _)

theorem part12 (c : Dev nD) (v2 v8 v9 v12 v331 v332 : BitVec 32) (Kt : FVec F S16x256 .f32 → sProp 𝕄) (H : St m K c 46 ⊢ Kt (k0_pay8 (xL m c 5))) :
    St m K c 42 ⊢ WP c (atBufs (k0_part12 (F := F)) c v2 v8 v9 v12 v331 v332) Kt := by
  unfold atBufs
  simp only [k0_part12_eq_skeleton]
  unfold k0_part12_skel
  simp only [Prog.lift, Prog.bind_op, Prog.bind_ret, Prog.pure_eq_ret]
  exact st_send m K c _ 1 4 (dev_eq k0_dev16 c _) 42 <| st_waitSend m K c 0 5 43 <| st_waitRecv m K c 0 5 44 <| st_loadX m K c 5 45 <| st_ret c H

theorem part13 (c : Dev nD) (v2 v8 v9 v10 : BitVec 32) (Kt : (Σ' (_ : BitVec 32), BitVec 32) → sProp 𝕄) (H : ∀ r s, St m K c 51 ⊢ Kt ⟨r, s⟩) :
    St m K c 46 ⊢ WP c (atBufs (k0_part13 (F := F)) c v2 v8 v9 v10 (k0_pay8 (xL m c 5))) Kt := by
  unfold atBufs
  simp only [k0_part13_eq_skeleton]
  unfold k0_part13_skel
  simp only [Prog.lift, Prog.bind_op, Prog.bind_ret, Prog.pure_eq_ret]
  exact st_loadR1 m K c 5 46 <| st_loadSBany m K c 5 47 fun _ => st_storeSB m K c 5 48 <| st_send m K c _ 1 5 (dev_eq k0_dev17 c _) 49 <|
    st_waitSend m K c 0 6 50 <| st_ret c (H _ _)

theorem part14 (c : Dev nD) (v2 v8 v10 v12 v390 v391 : BitVec 32) (Kt : PUnit → sProp 𝕄) (H : St m K c 57 ⊢ Kt ⟨⟩) :
    St m K c 51 ⊢ WP c (atBufs (k0_part14 (F := F)) c v2 v8 v10 v12 v390 v391) Kt := by
  unfold atBufs
  simp only [k0_part14_eq_skeleton]
  unfold k0_part14_skel
  simp only [Prog.lift, Prog.bind_op, Prog.bind_ret, Prog.pure_eq_ret]
  exact st_waitRecv m K c 0 6 51 <| st_loadX m K c 6 52 <| st_loadR1 m K c 6 53 <| st_loadSBany m K c 6 54 fun _ => st_storeSB m K c 6 55 <|
    st_send m K c _ 1 6 (dev_eq k0_dev18 c _) 56 <| st_ret c H

theorem part15 (c : Dev nD) (v2 v8 v9 v12 : BitVec 32) (Kt : (Σ' (_ : BitVec 32), BitVec 32) → sProp 𝕄) (H : ∀ r s, St m K c 63 ⊢ Kt ⟨r, s⟩) :
    St m K c 57 ⊢ WP c (atBufs (k0_part15 (F := F)) c v2 v8 v9 v12) Kt := by
  unfold atBufs
  simp only [k0_part15_eq_skeleton]
  unfold k0_part15_skel
  simp only [Prog.lift, Prog.bind_op, Prog.bind_ret, Prog.pure_eq_ret]
  exact st_waitSend m K c 0 7 57 <| st_waitRecv m K c 0 7 58 <| st_loadX m K c 7 59 <| st_loadR1 m K c 7 60 <| st_loadSBany m K c 7 61 fun _ =>
    st_storeSB m K c 7 62 <| st_ret c (H _ _)

theorem part16 (c : Dev nD) (v2 v8 v10 v450 c0 : BitVec 32) (Kt : PUnit → sProp 𝕄) (H : St m K c 65 ⊢ Kt ⟨⟩) :
    St m K c 63 ⊢ WP c (atBufs (k0_part16 (F := F)) c v2 v8 v10 v450 c0) Kt := by
  unfold atBufs
  simp only [k0_part16_eq_skeleton]
  unfold k0_part16_skel
  simp only [Prog.lift, Prog.bind_op, Prog.bind_ret, Prog.pure_eq_ret]
  exact st_send m K c _ 1 7 (dev_eq k0_dev19 c _) 63 <| st_waitSend m K c 1 0 64 <| st_ret c H

end Cert.KernelIdeal.Parts1

end
-- ==== Proof.Parts2.lean ====
import proofs.«900728_g7700000000000729_dist_ar_v7x_xyz2x4x4_y_m256_n256_f32_1_alg».proof.Proof.Rules

noncomputable section

namespace Cert.KernelIdeal.Parts2

open Cert.KernelIdeal Cert.KernelIdeal.Gen Cert.KernelIdeal.Mesh Cert.KernelIdeal.Proto Cert.KernelIdeal.State Cert.KernelIdeal.Levels Cert.KernelIdeal.BodyDefs Cert.KernelIdeal.Sched Cert.KernelIdeal.Steps Cert.KernelIdeal.Rules

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CIx → ℕ)

theorem part17 (c : Dev nD) (v5 v8 v11 v12 : BitVec 32) (Kt : PUnit → sProp 𝕄) (H : St m K c 72 ⊢ Kt ⟨⟩) :
    St m K c 65 ⊢ WP c (atBufs (k0_part17 (F := F)) c v5 v8 v11 v12) Kt := by
  unfold atBufs
  simp only [k0_part17_eq_skeleton]
  unfold k0_part17_skel
  simp only [Prog.lift, Prog.bind_op, Prog.bind_ret, Prog.pure_eq_ret]
  exact st_waitRecv m K c 1 0 65 <| st_loadSB m K c 0 66 <| st_loadR2 m K c 0 67 <| st_loadO m K c 0 68 fun _ => st_storeO m K c 0 69 <|
    st_send m K c _ 2 0 (dev_eq k0_dev20 c _) 70 <| st_waitSend m K c 1 1 71 <| st_ret c H

theorem part18 (c : Dev nD) (v2 v5 v8 v10 v11 v12 : BitVec 32) (Kt : PUnit → sProp 𝕄) (H : St m K c 77 ⊢ Kt ⟨⟩) :
    St m K c 72 ⊢ WP c (atBufs (k0_part18 (F := F)) c v2 v5 v8 v10 v11 v12) Kt := by
  unfold atBufs
  simp only [k0_part18_eq_skeleton]
  unfold k0_part18_skel
  simp only [Prog.lift, Prog.bind_op, Prog.bind_ret, Prog.pure_eq_ret]
  exact st_waitRecv m K c 1 1 72 <| st_loadSB m K c 1 73 <| st_loadR2 m K c 1 74 <| st_loadO m K c 1 75 fun _ => st_storeO m K c 1 76 <| st_ret c H

theorem part19 (c : Dev nD) (v2 v8 v10 v12 : BitVec 32) (Kt : (Σ' (_ : FVec F S16x256 .f32), BitVec 32) → sProp 𝕄) (H : ∀ s, St m K c 82 ⊢ Kt ⟨k0_pay14 (sbL m c 2) (r2L m c 2), s⟩) :
    St m K c 77 ⊢ WP c (atBufs (k0_part19 (F := F)) c v2 v8 v10 v12) Kt := by
  unfold atBufs
  simp only [k0_part19_eq_skeleton]
  unfold k0_part19_skel
  simp only [Prog.lift, Prog.bind_op, Prog.bind_ret, Prog.pure_eq_ret]
  exact st_send m K c _ 2 1 (dev_eq k0_dev21 c _) 77 <| st_waitSend m K c 1 2 78 <| st_waitRecv m K c 1 2 79 <| st_loadSB m K c 2 80 <|
    st_loadR2 m K c 2 81 <| st_ret c (H _)

theorem part20 (c : Dev nD) (v2 v5 v8 v10 v11 v12 v567 : BitVec 32) (Kt : PUnit → sProp 𝕄) (H : St m K c 86 ⊢ Kt ⟨⟩) :
    St m K c 82 ⊢ WP c (atBufs (k0_part20 (F := F)) c v2 v5 v8 v10 v11 v12 (k0_pay14 (sbL m c 2) (r2L m c 2)) v567) Kt := by
  unfold atBufs
  simp only [k0_part20_eq_skeleton]
  unfold k0_part20_skel
  simp only [Prog.lift, Prog.bind_op, Prog.bind_ret, Prog.pure_eq_ret]
  exact st_loadO m K c 2 82 fun _ => st_storeO m K c 2 83 <| st_send m K c _ 2 2 (dev_eq k0_dev22 c _) 84 <| st_waitSend m K c 1 3 85 <| st_ret c H

theorem part21 (c : Dev nD) (v5 v8 v11 v12 : BitVec 32) (Kt : PUnit → sProp 𝕄) (H : St m K c 92 ⊢ Kt ⟨⟩) :
    St m K c 86 ⊢ WP c (atBufs (k0_part21 (F := F)) c v5 v8 v11 v12) Kt := by
  unfold atBufs
  simp only [k0_part21_eq_skeleton]
  unfold k0_part21_skel
  simp only [Prog.lift, Prog.bind_op, Prog.bind_ret, Prog.pure_eq_ret]
  exact st_waitRecv m K c 1 3 86 <| st_loadSB m K c 3 87 <| st_loadR2 m K c 3 88 <| st_loadO m K c 3 89 fun _ => st_storeO m K c 3 90 <|
    st_send m K c _ 2 3 (dev_eq k0_dev23 c _) 91 <| st_ret c H

theorem part22 (c : Dev nD) (v2 v8 v10 v11 v12 : BitVec 32) (Kt : BitVec 32 → sProp 𝕄) (H : ∀ r, St m K c 98 ⊢ Kt r) :
    St m K c 92 ⊢ WP c (atBufs (k0_part22 (F := F)) c v2 v8 v10 v11 v12) Kt := by
  unfold atBufs
  simp only [k0_part22_eq_skeleton]
  unfold k0_part22_skel
  simp only [Prog.lift, Prog.bind_op, Prog.bind_ret, Prog.pure_eq_ret]
  exact st_waitSend m K c 1 4 92 <| st_waitRecv m K c 1 4 93 <| st_loadSB m K c 4 94 <| st_loadR2 m K c 4 95 <| st_loadO m K c 4 96 fun _ =>
    st_storeO m K c 4 97 <| st_ret c (H _)

theorem part23 (c : Dev nD) (v2 v5 v8 v10 v653 : BitVec 32) (Kt : Vec F S1x16x256 .f32 → sProp 𝕄) (H : St m K c 102 ⊢ Kt (sbL m c 5)) :
    St m K c 98 ⊢ WP c (atBufs (k0_part23 (F := F)) c v2 v5 v8 v10 v653) Kt := by
  unfold atBufs
  simp only [k0_part23_eq_skeleton]
  unfold k0_part23_skel
  simp only [Prog.lift, Prog.bind_op, Prog.bind_ret, Prog.pure_eq_ret]
  exact st_send m K c _ 2 4 (dev_eq k0_dev24 c _) 98 <| st_waitSend m K c 1 5 99 <| st_waitRecv m K c 1 5 100 <| st_loadSB m K c 5 101 <| st_ret c H

theorem part24 (c : Dev nD) (v2 v5 v8 v11 v12 : BitVec 32) (Kt : BitVec 32 → sProp 𝕄) (H : ∀ r, St m K c 107 ⊢ Kt r) :
    St m K c 102 ⊢ WP c (atBufs (k0_part24 (F := F)) c v2 v5 v8 v11 v12 (sbL m c 5)) Kt := by
  unfold atBufs
  simp only [k0_part24_eq_skeleton]
  unfold k0_part24_skel
  simp only [Prog.lift, Prog.bind_op, Prog.bind_ret, Prog.pure_eq_ret]
  exact st_loadR2 m K c 5 102 <| st_loadO m K c 5 103 fun _ => st_storeO m K c 5 104 <| st_send m K c _ 2 5 (dev_eq k0_dev25 c _) 105 <|
    st_waitSend m K c 1 6 106 <| st_ret c (H _)

theorem part25 (c : Dev nD) (v5 v8 v10 v11 v12 v710 : BitVec 32) (Kt : PUnit → sProp 𝕄) (H : St m K c 112 ⊢ Kt ⟨⟩) :
    St m K c 107 ⊢ WP c (atBufs (k0_part25 (F := F)) c v5 v8 v10 v11 v12 v710) Kt := by
  unfold atBufs
  simp only [k0_part25_eq_skeleton]
  unfold k0_part25_skel
  simp only [Prog.lift, Prog.bind_op, Prog.bind_ret, Prog.pure_eq_ret]
  exact st_waitRecv m K c 1 6 107 <| st_loadSB m K c 6 108 <| st_loadR2 m K c 6 109 <| st_loadO m K c 6 110 fun _ => st_storeO m K c 6 111 <|
    st_ret c H

theorem part26 (c : Dev nD) (v2 v8 v10 v12 : BitVec 32) (Kt : BitVec 32 → sProp 𝕄) (H : ∀ r, St m K c 119 ⊢ Kt r) :
    St m K c 112 ⊢ WP c (atBufs (k0_part26 (F := F)) c v2 v8 v10 v12) Kt := by
  unfold atBufs
  simp only [k0_part26_eq_skeleton]
  unfold k0_part26_skel
  simp only [Prog.lift, Prog.bind_op, Prog.bind_ret, Prog.pure_eq_ret]
  exact st_send m K c _ 2 6 (dev_eq k0_dev26 c _) 112 <| st_waitSend m K c 1 7 113 <| st_waitRecv m K c 1 7 114 <| st_loadSB m K c 7 115 <|
    st_loadR2 m K c 7 116 <| st_loadO m K c 7 117 fun _ => st_storeO m K c 7 118 <| st_ret c (H _)

theorem part27 (c : Dev nD) (v5 v8 v11 v12 c112 : BitVec 32) (Kt : PUnit → sProp 𝕄) (H : St m K c 122 ⊢ Kt ⟨⟩) :
    St m K c 119 ⊢ WP c (atBufs (k0_part27 (F := F)) c v5 v8 v11 v12 c112) Kt := by
  unfold atBufs
  simp only [k0_part27_eq_skeleton]
  unfold k0_part27_skel
  simp only [Prog.lift, Prog.bind_op, Prog.bind_ret, Prog.pure_eq_ret]
  exact st_send m K c _ 2 7 (dev_eq k0_dev27 c _) 119 <| st_waitSend m K c 2 0 120 <| st_waitRecv m K c 2 0 121 <| st_ret c H

theorem part28 (c : Dev nD) (v5 v8 v11 : BitVec 32) (Kt : PUnit → sProp 𝕄) (H : St m K c 126 ⊢ Kt ⟨⟩) :
    St m K c 122 ⊢ WP c (atBufs (k0_part28 (F := F)) c v5 v8 v11) Kt := by
  unfold atBufs
  simp only [k0_part28_eq_skeleton]
  unfold k0_part28_skel
  simp only [Prog.lift, Prog.bind_op, Prog.bind_ret, Prog.pure_eq_ret]
  exact st_waitSend m K c 2 1 122 <| st_waitRecv m K c 2 1 123 <| st_waitSend m K c 2 2 124 <| st_waitRecv m K c 2 2 125 <| st_ret c H

theorem part29 (c : Dev nD) (v5 v8 v11 : BitVec 32) (Kt : PUnit → sProp 𝕄) (H : St m K c 131 ⊢ Kt ⟨⟩) :
    St m K c 126 ⊢ WP c (atBufs (k0_part29 (F := F)) c v5 v8 v11) Kt := by
  unfold atBufs
  simp only [k0_part29_eq_skeleton]
  unfold k0_part29_skel
  simp only [Prog.lift, Prog.bind_op, Prog.bind_ret, Prog.pure_eq_ret]
  exact st_waitSend m K c 2 3 126 <| st_waitRecv m K c 2 3 127 <| st_waitSend m K c 2 4 128 <| st_waitRecv m K c 2 4 129 <|
    st_waitSend m K c 2 5 130 <| st_ret c H

theorem part30 (c : Dev nD) (v5 v8 v11 : BitVec 32) (Kt : BitVec 32 → sProp 𝕄) (H : ∀ r, St m K c 135 ⊢ Kt r) :
    St m K c 131 ⊢ WP c (atBufs (k0_part30 (F := F)) c v5 v8 v11) Kt := by
  unfold atBufs
  simp only [k0_part30_eq_skeleton]
  unfold k0_part30_skel
  simp only [Prog.lift, Prog.bind_op, Prog.bind_ret, Prog.pure_eq_ret]
  exact st_waitRecv m K c 2 5 131 <| st_waitSend m K c 2 6 132 <| st_waitRecv m K c 2 6 133 <| st_waitSend m K c 2 7 134 <| st_ret c (H _)

theorem tail (c : Dev nD) (Kt : PUnit → sProp 𝕄) (H : St m K c 136 ⊢ Kt ⟨⟩) :
    St m K c 135 ⊢ WP c (.op (.waitDma2 ((cc0_scratch4.slice (Rect.unit (s := S24) ![23] S1.size inb_S24_S1_23)).squeeze S_ squeezes_S1_S_).sem
      ((Memref.whole cc0_stg1_0 : Memref sig .tc .vmem S256x256 .f32).slice (Rect.unit (s := S256x256) (k0_off1 c 112#32) S16x256.size (k0_off1_inb c 7)) (fun _ => rfl))
      ((Memref.whole cc0_stg1_0 : Memref sig .tc .vmem S256x256 .f32).slice (Rect.unit (s := S256x256) (k0_off1 c 112#32) S16x256.size (k0_off1_inb c 7)) (fun _ => rfl))
      (View.wordExact_bits rfl) (View.wordExact_bits rfl)) (fun _ => .ret ⟨⟩)) Kt :=
  st_waitRecv m K c 2 7 135 <| st_ret c H

end Cert.KernelIdeal.Parts2

end
-- ==== Proof.Exit.lean ====
import proofs.«900728_g7700000000000729_dist_ar_v7x_xyz2x4x4_y_m256_n256_f32_1_alg».proof.Proof.BodyDefs
import proofs.«900728_g7700000000000729_dist_ar_v7x_xyz2x4x4_y_m256_n256_f32_1_alg».proof.Proof.Levels
import proofs.«900728_g7700000000000729_dist_ar_v7x_xyz2x4x4_y_m256_n256_f32_1_alg».proof.Proof.Cuts
import Idealize.ShloMosaic.Lib.HeldBySlice
import Mathlib.Data.List.Nodup
import Mathlib.Data.Fintype.Basic

noncomputable section

namespace Cert.KernelIdeal.Exit

open Cert.KernelIdeal Cert.KernelIdeal.Gen Cert.KernelIdeal.Mesh Cert.KernelIdeal.Proto Cert.KernelIdeal.State
open Cert.KernelIdeal.BodyDefs Cert.KernelIdeal.Sched Cert.KernelIdeal.Levels Cert.KernelIdeal.Cuts

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CIx → ℕ)

theorem stage_end : ∀ (p : Fin 3) (k : Fin 8), stage p 136 k.val = 4 := by decide
theorem started_end : started 136 = 24 := by decide

theorem close_cell (c : Dev nD) (bj : Bool × Fin 24) :
    iprop(records m K ∗ atPos ER (kcell (c, some bj)) 1 ∅ 0) ⊢ (|={Set.univ}=> semVal (kcell (c, some bj)) 0 : sProp 𝕄) := by
  have hel : (bigSep Finset.univ fun ck : Dev nD × CIx => cellInv ER (sched m) (K ck) (kcell ck))
      ⊢ (cellInv ER (sched m) (K (c, some bj)) (kcell (c, some bj)) : sProp 𝕄) := bigSep_elim (Finset.mem_univ _)
  unfold records
  iintro ⟨⟨Hinv, -⟩, Hat⟩
  ihave Hc := hel $$ Hinv
  iapply (cell_close ER (sched m) (Set.mem_univ _) (fun h => h) (R := 1) (fun r hr => duties_later m _ r hr))
  isplitl [Hc]
  · iexact Hc
  · iexact Hat

theorem close_cells (c : Dev nD) :
    iprop(records m K ∗ bigSep Finset.univ fun bj : Bool × Fin 24 => atPos ER (kcell (c, some bj)) 1 ∅ 0)
      ⊢ (|={Set.univ}=> bigSep Finset.univ fun bj : Bool × Fin 24 => semVal (kcell (c, some bj)) 0 : sProp 𝕄) :=
  (bigSep_with_persistent fun bj _ => close_cell m K c bj).trans (bigSep_fupd _ _)

def pieceHeld (c : Dev nD) (r : Rect S256x256) (w : r.shape.Idx → Elt F .f32) : sProp 𝕄 :=
  iprop(∃ f : Buf (Elt F) (oM.view.loc (c : Thread nD τ)),
    (oM.access r).loc (c : Thread nD τ) ↦[(oM.access r).set]{fullShare} (oM.access r).write (Elt F) f w Finset.univ)

theorem held_cons (c : Dev nD) (r : Rect S256x256) (w : r.shape.Idx → Elt F .f32) (L : List (View.Piece (Elt F) S256x256 .f32)) :
    (Memref.heldBySlice (c : Thread nD τ) oM fullShare (⟨r, w⟩ :: L) : sProp 𝕄)
      = iprop(pieceHeld c r w ∗ Memref.heldBySlice (c : Thread nD τ) oM fullShare L) := rfl

theorem held_of_bigSep (c : Dev nD) (r : Fin 8 → Rect S256x256) (w : (k : Fin 8) → (r k).shape.Idx → Elt F .f32) :
    ∀ l : List (Fin 8), l.Nodup →
      (bigSep l.toFinset (fun k => pieceHeld c (r k) (w k))
        ⊢ (Memref.heldBySlice (c : Thread nD τ) oM fullShare (l.map fun k => (⟨r k, w k⟩ : View.Piece (Elt F) S256x256 .f32)) : sProp 𝕄))
  | [], _ => by rw [List.toFinset_nil, bigSep_empty]; exact .rfl
  | k :: l, h => by
    obtain ⟨hk, hl⟩ := List.nodup_cons.mp h
    rw [List.toFinset_cons, bigSep_insert (fun hm => hk (List.mem_toFinset.mp hm)), List.map_cons, held_cons]
    exact sep_mono_right (held_of_bigSep c r w l hl)

theorem held_append (c : Dev nD) : ∀ L L' : List (View.Piece (Elt F) S256x256 .f32),
    iprop(Memref.heldBySlice (c : Thread nD τ) oM fullShare L ∗ Memref.heldBySlice (c : Thread nD τ) oM fullShare L')
      ⊢ (Memref.heldBySlice (c : Thread nD τ) oM fullShare (L ++ L') : sProp 𝕄)
  | [], L' => by
    iintro ⟨-, H⟩
    iexact H
  | ⟨r, w⟩ :: L, L' => by
    rw [List.cons_append, held_cons, held_cons]
    iintro ⟨⟨Hp, HL⟩, HL'⟩
    isplitl [Hp]
    · iexact Hp
    iapply (held_append c L L')
    isplitl [HL]
    · iexact HL
    iexact HL'

theorem outPieces_eq (c : Dev nD) :
    outPieces m c = ((List.finRange 8).map fun k => (⟨rowRect2 c k, oVal m c k⟩ : View.Piece (Elt F) S256x256 .f32))
      ++ ((List.finRange 8).map fun k => (⟨rowRect (peer 2 c) k, (oSl (peer 2 c) k).view.read (Elt F) (oC m (peer 2 c) k)⟩ : View.Piece (Elt F) S256x256 .f32)) := rfl

theorem own_held (c : Dev nD) (k : Fin 8) : sl (oSl c k) c (oC m c k) ⊢ (pieceHeld c (rowRect2 c k) (oVal m c k) : sProp 𝕄) := by
  unfold pieceHeld
  iintro H
  iexists (m ((c : Thread nD τ).loc cc0_stg1_0))
  rw [row2_set_o]
  iexact H

theorem peer_held (c : Dev nD) (k : Fin 8) :
    sl (oSl (peer 2 c) k) c (oC' m c k)
      ⊢ (pieceHeld c (rowRect (peer 2 c) k) ((oSl (peer 2 c) k).view.read (Elt F) (oC m (peer 2 c) k)) : sProp 𝕄) := by
  unfold pieceHeld
  iintro H
  iexists (m ((c : Thread nD τ).loc cc0_stg1_0))
  iexact H

theorem out_pairwise (c : Dev nD) :
    (outPieces m c).Pairwise (fun p p' => Disjoint (oM.access p.1).set (oM.access p'.1).set) := by
  rw [outPieces_eq]
  refine List.pairwise_append.mpr ⟨?_, ?_, ?_⟩
  · refine List.pairwise_map.mpr ((List.nodup_finRange 8).pairwise_of_forall_ne fun k _ k' _ h => ?_)
    show Disjoint (oM.access (rowRect2 c k)).set (oM.access (rowRect2 c k')).set
    rw [row2_set_o, row2_set_o]
    exact oSl_disjoint c h
  · refine List.pairwise_map.mpr ((List.nodup_finRange 8).pairwise_of_forall_ne fun k _ k' _ h => ?_)
    show Disjoint (oSl (peer 2 c) k).view.set (oSl (peer 2 c) k').view.set
    exact oSl_disjoint (peer 2 c) h
  · intro p hp p' hp'
    obtain ⟨k, -, rfl⟩ := List.mem_map.mp hp
    obtain ⟨k', -, rfl⟩ := List.mem_map.mp hp'
    show Disjoint (oM.access (rowRect2 c k)).set (oSl (peer 2 c) k').view.set
    rw [row2_set_o]
    exact oSl_disjoint_half c k k'

theorem mem_piecesSet (c : Dev nD) (i : Idx (oM.view.loc (c : Thread nD τ))) :
    ∀ L : List (View.Piece (Elt F) S256x256 .f32), (∃ p ∈ L, i ∈ (oM.access p.1).set) → i ∈ Memref.piecesSet (c : Thread nD τ) oM L
  | [], ⟨_, hp, _⟩ => absurd hp List.not_mem_nil
  | p :: L, ⟨p', hp', hi⟩ => by
    rcases List.mem_cons.mp hp' with rfl | h
    · exact Finset.mem_union_left _ hi
    · exact Finset.mem_union_right _ (mem_piecesSet c i L ⟨p', h, hi⟩)

/-- Every element of the result buffer lies in one of the sixteen pieces. -/
theorem piece_of_idx (c : Dev nD) (i : S256x256.Idx) : ∃ p ∈ outPieces m c, i ∈ (oM.access p.1).set := by
  have hi : i ∈ (Finset.univ.biUnion fun k : Fin 8 => (rowRect c k).set) ∪ (Finset.univ.biUnion fun k : Fin 8 => (rowRect (peer 2 c) k).set) := by
    rw [rowRect_cover c]; exact Finset.mem_univ _
  rw [outPieces_eq]
  rcases Finset.mem_union.mp hi with h | h
  · obtain ⟨k, -, hk⟩ := Finset.mem_biUnion.mp h
    refine ⟨_, List.mem_append_left _ (List.mem_map.mpr ⟨k, List.mem_finRange k, rfl⟩), ?_⟩
    show i ∈ (oM.access (rowRect2 c k)).set
    rw [row2_set_o, oSl_set]
    exact hk
  · obtain ⟨k, -, hk⟩ := Finset.mem_biUnion.mp h
    refine ⟨_, List.mem_append_right _ (List.mem_map.mpr ⟨k, List.mem_finRange k, rfl⟩), ?_⟩
    show i ∈ (oSl (peer 2 c) k).view.set
    rw [oSl_set]
    exact hk

theorem out_cover (c : Dev nD) : oM.view.set \ Memref.piecesSet (c : Thread nD τ) oM (outPieces m c) = ∅ :=
  Finset.sdiff_eq_empty_iff_subset.mpr fun i _ => mem_piecesSet c i _ (piece_of_idx m c i)

theorem held_out (c : Dev nD) :
    Memref.heldBySlice (c : Thread nD τ) oM fullShare (outPieces m c)
      ⊢ (((c : Thread nD τ).loc cc0_stg1_0) ↦{fullShare} outAt m c : sProp 𝕄) := by
  have e := Memref.heldBySlice_join_rest (Ix := Unit) (Name := ℕ) (U := UU) (Lvl := ℕ) (c : Thread nD τ) oM fullShare (outPieces m c) (out_pairwise m c) (m ((c : Thread nD τ).loc cc0_stg1_0))
  rw [out_cover m c, pointsTo_empty, show oM.view.set = Finset.univ from View.set_whole _] at e
  exact BIBase.Entails.trans Laws.sep_emp.2 e

theorem out_join (c : Dev nD) :
    iprop((bigSep Finset.univ fun k : Fin 8 => sl (oSl c k) c (oC m c k))
        ∗ (bigSep Finset.univ fun k : Fin 8 => sl (oSl (peer 2 c) k) c (oC' m c k)))
      ⊢ (stg c cc0_stg1_0 (outAt m c) : sProp 𝕄) := by
  have h1 := held_of_bigSep c (fun k => rowRect2 c k) (fun k => oVal m c k) (List.finRange 8) (List.nodup_finRange 8)
  have h2 := held_of_bigSep c (fun k => rowRect (peer 2 c) k) (fun k => (oSl (peer 2 c) k).view.read (Elt F) (oC m (peer 2 c) k))
    (List.finRange 8) (List.nodup_finRange 8)
  rw [List.toFinset_finRange] at h1 h2
  have g1 : (bigSep Finset.univ fun k : Fin 8 => sl (oSl c k) c (oC m c k))
      ⊢ (bigSep Finset.univ fun k : Fin 8 => pieceHeld c (rowRect2 c k) (oVal m c k) : sProp 𝕄) :=
    bigSep_mono fun k _ => own_held m c k
  have g2 : (bigSep Finset.univ fun k : Fin 8 => sl (oSl (peer 2 c) k) c (oC' m c k))
      ⊢ (bigSep Finset.univ fun k : Fin 8 => pieceHeld c (rowRect (peer 2 c) k) ((oSl (peer 2 c) k).view.read (Elt F) (oC m (peer 2 c) k)) : sProp 𝕄) :=
    bigSep_mono fun k _ => peer_held m c k
  iintro ⟨H1, H2⟩
  iexists (outAt m c)
  isplitr
  · ipureintro; rfl
  iapply (held_out m c)
  rw [outPieces_eq]
  iapply (held_append c _ _)
  isplitl [H1]
  · iapply h1
    iapply g1
    iexact H1
  · iapply h2
    iapply g2
    iexact H2

theorem owes_exit (c : Dev nD) :
    (iprop(∃ W, owes (c : Thread nD τ) 0 W) : sProp 𝕄) ⊢ (dats m ρ 0 c).owesAt () t₀.succ := by
  iintro ⟨%W, H⟩
  iexists W
  isplitr
  · ipureintro; exact fun x _ => Or.inl trivial
  · iexact H

theorem sl_any {sp : Space} {s : Shape} {e : EltTy} (mr : Memref sig .tc sp s e) (c : Dev nD)
    (f : Buf (Elt F) (mr.view.loc (c : Thread nD τ))) : sl mr c f ⊢ (iprop(∃ f, sl mr c f) : sProp 𝕄) := by
  iintro H
  iexists f
  iexact H

theorem scratch_exit (c : Dev nD) :
    iprop((bigSep Finset.univ fun k : Fin 8 => sl (r1Sl k) c (r1C m c k)) ∗ (bigSep Finset.univ fun k : Fin 8 => sl (r2Sl k) c (r2C m c k))
        ∗ (bigSep Finset.univ fun k : Fin 8 => sl (sbSl k) c (sbC m c k))) ⊢ (scratch c : sProp 𝕄) := by
  have a1 : (bigSep Finset.univ fun k : Fin 8 => sl (r1Sl k) c (r1C m c k)) ⊢ (bigSep Finset.univ fun k : Fin 8 => (iprop(∃ f, sl (r1Sl k) c f) : sProp 𝕄)) :=
    bigSep_mono fun k _ => sl_any (r1Sl k) c (r1C m c k)
  have a2 : (bigSep Finset.univ fun k : Fin 8 => sl (r2Sl k) c (r2C m c k)) ⊢ (bigSep Finset.univ fun k : Fin 8 => (iprop(∃ f, sl (r2Sl k) c f) : sProp 𝕄)) :=
    bigSep_mono fun k _ => sl_any (r2Sl k) c (r2C m c k)
  have a3 : (bigSep Finset.univ fun k : Fin 8 => sl (sbSl k) c (sbC m c k)) ⊢ (bigSep Finset.univ fun k : Fin 8 => (iprop(∃ f, sl (sbSl k) c f) : sProp 𝕄)) :=
    bigSep_mono fun k _ => sl_any (sbSl k) c (sbC m c k)
  unfold scratch
  iintro ⟨H1, H2, H3⟩
  isplitl [H1]
  · iapply (r1_join_any m c)
    iapply a1
    iexact H1
  isplitl [H2]
  · iapply (r2_join_any m c)
    iapply a2
    iexact H2
  · iapply (sb_join_any m c)
    iapply a3
    iexact H3

theorem x_exit (c : Dev nD) :
    iprop((bigSep Finset.univ fun k : Fin 8 => sl (xSl c k) c (xsC m c)) ∗ xRest m c) ⊢ (stg c cc0_stg0_0 (xsC m c) : sProp 𝕄) := by
  unfold xRest
  iintro H
  iexists (xsC m c)
  isplitr
  · ipureintro; rfl
  iapply (Entails.of_eq (x_cut_eq c (xsC m c)).symm)
  iexact H

/-- At the end every exchange of every chunk is over: the state's exchanges sorted by kind. -/
theorem segs_end (c : Dev nD) : segs m c 136 = (iprop(
    ((bigSep Finset.univ fun k : Fin 8 => sl (xSl c k) c (xsC m c)) ∗ (bigSep Finset.univ fun k : Fin 8 => sdone c (jOf 0 k))
      ∗ (bigSep Finset.univ fun k : Fin 8 => sl (r1Sl k) c (r1C m c k)) ∗ (bigSep Finset.univ fun k : Fin 8 => rdone c (jOf 0 k)))
    ∗ ((bigSep Finset.univ fun k : Fin 8 => sl (sbSl k) c (sbC m c k)) ∗ (bigSep Finset.univ fun k : Fin 8 => sdone c (jOf 1 k))
      ∗ (bigSep Finset.univ fun k : Fin 8 => sl (r2Sl k) c (r2C m c k)) ∗ (bigSep Finset.univ fun k : Fin 8 => rdone c (jOf 1 k)))
    ∗ ((bigSep Finset.univ fun k : Fin 8 => sl (oSl c k) c (oC m c k)) ∗ (bigSep Finset.univ fun k : Fin 8 => sdone c (jOf 2 k))
      ∗ (bigSep Finset.univ fun k : Fin 8 => sl (oSl (peer 2 c) k) c (oC' m c k)) ∗ (bigSep Finset.univ fun k : Fin 8 => rdone c (jOf 2 k)))) : sProp 𝕄) := by
  unfold segs
  rw [bigSep_univ_prod, bigSep_univ_eq_bigSepL ([0, 1, 2] : List (Fin 3)) (by decide) (by decide), bigSepL_cons_cons, bigSepL_cons_cons, bigSepL_singleton]
  simp only [stage_end, seg_4, bigSep_sep']
  rfl

theorem positions_end (c : Dev nD) :
    (iprop(((bigSep Finset.univ fun k : Fin 8 => sdone c (jOf 0 k)) ∗ (bigSep Finset.univ fun k : Fin 8 => sdone c (jOf 1 k)) ∗ (bigSep Finset.univ fun k : Fin 8 => sdone c (jOf 2 k)))
      ∗ ((bigSep Finset.univ fun k : Fin 8 => rdone c (jOf 0 k)) ∗ (bigSep Finset.univ fun k : Fin 8 => rdone c (jOf 1 k)) ∗ (bigSep Finset.univ fun k : Fin 8 => rdone c (jOf 2 k)))) : sProp 𝕄)
    = bigSep Finset.univ fun bj : Bool × Fin 24 => atPos ER (kcell (c, some bj)) 1 ∅ 0 := by
  rw [bigSep_cells, bigSep_fin24, bigSep_fin24]
  rfl

theorem exit (c : Dev nD) : St m K c 136 ⊢ (|={Set.univ}=> bodyPost m ρ c : sProp 𝕄) := by
  unfold St
  rw [started_end, owedFrom_24, segs_end]
  iintro ⟨#HR, -, HxR, Hw, ⟨Hx, HS0, HR1, HD0⟩, ⟨HSB, HS1, HR2, HD1⟩, ⟨HO, HS2, HO', HD2⟩⟩
  ihave Hcells := (close_cells m K c) $$ [HS0 HS1 HS2 HD0 HD1 HD2]
  · isplitr
    · iexact HR
    rw [← positions_end]
    isplitl [HS0 HS1 HS2]
    · isplitl [HS0]
      · iexact HS0
      isplitl [HS1]
      · iexact HS1
      iexact HS2
    · isplitl [HD0]
      · iexact HD0
      isplitl [HD1]
      · iexact HD1
      iexact HD2
  imod Hcells
  imodintro
  unfold bodyPost Φ₁
  isplitl [Hcells HR1 HR2 HSB]
  · isplitr [Hcells]
    · iapply (scratch_exit m c)
      isplitl [HR1]
      · iexact HR1
      isplitl [HR2]
      · iexact HR2
      iexact HSB
    · iexact Hcells
  isplitl [Hw]
  · iapply (owes_exit m ρ c)
    iexact Hw
  isplitl [Hx HxR]
  · iapply (x_exit m c)
    isplitl [Hx]
    · iexact Hx
    iexact HxR
  · iapply (out_join m c)
    isplitl [HO]
    · iexact HO
    iexact HO'

end Cert.KernelIdeal.Exit

end
-- ==== Proof.Body.lean ====
import proofs.«900728_g7700000000000729_dist_ar_v7x_xyz2x4x4_y_m256_n256_f32_1_alg».proof.Proof.BodyDefs
import proofs.«900728_g7700000000000729_dist_ar_v7x_xyz2x4x4_y_m256_n256_f32_1_alg».proof.Proof.Entry
import proofs.«900728_g7700000000000729_dist_ar_v7x_xyz2x4x4_y_m256_n256_f32_1_alg».proof.Proof.Parts1
import proofs.«900728_g7700000000000729_dist_ar_v7x_xyz2x4x4_y_m256_n256_f32_1_alg».proof.Proof.Parts2
import proofs.«900728_g7700000000000729_dist_ar_v7x_xyz2x4x4_y_m256_n256_f32_1_alg».proof.Proof.Exit

noncomputable section

namespace Cert.KernelIdeal.Body

open Cert.KernelIdeal Cert.KernelIdeal.Gen Cert.KernelIdeal.Mesh Cert.KernelIdeal.Proto Cert.KernelIdeal.State Cert.KernelIdeal.BodyDefs Cert.KernelIdeal.Entry Cert.KernelIdeal.Parts1 Cert.KernelIdeal.Parts2 Cert.KernelIdeal.Exit

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CIx → ℕ)

theorem sound_body (c : Dev nD) : bodyPre m ρ K c ⊢ WP c (atBufs (cc0_body (F := F))) (fun _ => bodyPost m ρ c) := by
  unfold atBufs
  simp only [cc0_body_eq_skeleton]; unfold cc0_body_skel
  simp only [wp_bind]
  refine part1 m ρ K c _ fun v2 v5 v8 v9 v10 v11 v12 => ?_
  refine part2 m K c v2 v8 v9 v12 _ ?_
  refine part3 m K c v2 v8 v9 v12 _ fun v92 => ?_
  refine part4 m K c v2 v8 v9 v12 v92 _ ?_
  refine part5 m K c v2 v8 v9 v12 _ ?_
  refine part6 m K c v2 v8 v10 v12 _ ?_
  refine part7 m K c v2 v8 v9 v10 v12 _ fun v213 v214 => ?_
  refine part8 m K c v2 v8 v9 v12 v213 v214 _ ?_
  refine part9 m K c v2 v8 v9 v10 _ fun v272 v273 => ?_
  refine part10 m K c v2 v8 v10 v12 v272 v273 _ ?_
  refine part11 m K c v2 v8 v9 v10 v12 _ fun v331 v332 => ?_
  refine part12 m K c v2 v8 v9 v12 v331 v332 _ ?_
  refine part13 m K c v2 v8 v9 v10 _ fun v390 v391 => ?_
  refine part14 m K c v2 v8 v10 v12 v390 v391 _ ?_
  refine part15 m K c v2 v8 v9 v12 _ fun v450 c371 => ?_
  refine part16 m K c v2 v8 v10 v450 c371 _ ?_
  refine part17 m K c v5 v8 v11 v12 _ ?_
  refine part18 m K c v2 v5 v8 v10 v11 v12 _ ?_
  refine part19 m K c v2 v8 v10 v12 _ fun v567 => ?_
  refine part20 m K c v2 v5 v8 v10 v11 v12 v567 _ ?_
  refine part21 m K c v5 v8 v11 v12 _ ?_
  refine part22 m K c v2 v8 v10 v11 v12 _ fun v653 => ?_
  refine part23 m K c v2 v5 v8 v10 v653 _ ?_
  refine part24 m K c v2 v5 v8 v11 v12 _ fun v710 => ?_
  refine part25 m K c v5 v8 v10 v11 v12 v710 _ ?_
  refine part26 m K c v2 v8 v10 v12 _ fun c112 => ?_
  refine part27 m K c v5 v8 v11 v12 c112 _ ?_
  refine part28 m K c v5 v8 v11 _ ?_
  refine part29 m K c v5 v8 v11 _ ?_
  refine part30 m K c v5 v8 v11 _ fun c16 => ?_
  refine tail m K c _ ?_
  rw [Prog.pure_eq_ret, wp_ret]
  exact Cert.KernelIdeal.Exit.exit m ρ K c

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ WP c (atBufs (cc0_body (F := F))) (fun _ => bodyPost m ρ c)
  unfold bodyPre' Φ₀ start
  iintro ⟨⟨⟨⟨%K, Hg⟩, Hrest⟩, Hscr⟩, Ho, Hx, Hout⟩
  iapply (sound_body m ρ K c)
  unfold bodyPre
  isplitl [Hg Hrest Hscr]
  · isplitl [Hg]; · iexact Hg
    icases Hrest with ⟨H1, H2, H3⟩
    iframe
  isplitl [Ho]; · iexact Ho
  isplitl [Hx] <;> iassumption

end Cert.KernelIdeal.Body

end
-- ==== Proof.Launch.lean ====
import proofs.«900728_g7700000000000729_dist_ar_v7x_xyz2x4x4_y_m256_n256_f32_1_alg».proof.Proof.Levels
import proofs.«900728_g7700000000000729_dist_ar_v7x_xyz2x4x4_y_m256_n256_f32_1_alg».proof.Proof.Gen.KernelIdeal.Points
import Idealize.ShloMosaic.Lib.Pipeline.Launch
import Idealize.ShloMosaic.Lib.Pipeline.Kit
import Idealize.ShloMosaic.Lib.Tactic
import Mathlib.Data.Fintype.Option
import Mathlib.Data.Fintype.Sum

noncomputable section

namespace Cert.KernelIdeal.Launch

open Cert.KernelIdeal Cert.KernelIdeal.Gen Cert.KernelIdeal.Mesh Cert.KernelIdeal.Proto Cert.KernelIdeal.State Cert.KernelIdeal.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CIx → ℕ)

theorem ownSemFacts : Pipeline.OwnSemFacts cfg0.spec osem := ⟨by decide, osem_injective, by decide⟩

theorem share_eq (c : Dev nD) (w : Fin cfg0.W) : (dats (F := F) m ρ 0 c).share w = fullShare := by unfold Dat.share; split <;> rfl

def ringCells : Finset (GSem nD τ sig) := Finset.univ.map ⟨kcell, kcell_injective⟩

abbrev TIx : Type := Fin 3 ⊕ (Bool × Fin 24)
abbrev tokOf (ct : Dev nD × TIx) : GSem nD τ sig × ℕ × Fin 3 := match ct.2 with
  | .inl p => (barCell ct.1, 0, p)
  | .inr bj => (kcell (ct.1, some bj), 0, 0)

theorem tokOf_injective : Function.Injective (tokOf : Dev nD × TIx → GSem nD τ sig × ℕ × Fin 3) := by
  rintro ⟨c, t⟩ ⟨c', t'⟩ h
  rcases t with p | bj <;> rcases t' with p' | bj'
  · have h1 : c = c' := barCell_eq_iff.mp (congrArg (fun x : GSem nD τ sig × ℕ × Fin 3 => x.1) h)
    have h2 : p = p' := congrArg (fun x : GSem nD τ sig × ℕ × Fin 3 => x.2.2) h
    rw [h1, h2]
  · have := kcell_injective (a₁ := (c, none)) (a₂ := (c', some bj')) (congrArg (fun x : GSem nD τ sig × ℕ × Fin 3 => x.1) h)
    cases this
  · have := kcell_injective (a₁ := (c, some bj)) (a₂ := (c', none)) (congrArg (fun x : GSem nD τ sig × ℕ × Fin 3 => x.1) h)
    cases this
  · have := kcell_injective (a₁ := (c, some bj)) (a₂ := (c', some bj')) (congrArg (fun x : GSem nD τ sig × ℕ × Fin 3 => x.1) h)
    cases this; rfl

def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  iprop((bigSep Finset.univ fun p : Fin 3 => dutyTok ER (barCell c) 0 p)
    ∗ bigSep Finset.univ fun bj : Bool × Fin 24 => dutyTok ER (kcell (c, some bj)) 0 (0 : Fin 3))

def G (c : Dev nD) : sProp 𝕄 :=
  iprop((bigSep Finset.univ fun i : CIx => roundState ER (sched m) (kcell (c, i)) 0)
    ∗ (bigSep Finset.univ fun i : CIx => iprop(atPos ER (kcell (c, i)) 0 ∅ 0 ∗ reached ER (kcell (c, i)) 0)) ∗ toks c)

def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun i : CIx => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = bigSep Finset.univ fun bj : Bool × Fin 24 => semVal (kcell (c, some bj)) 0 := rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CIx => semVal (kcell (c, i)) 0 : sProp 𝕄) := by
  rw [ownSems0_eq, unscopedSems0_eq, bigSep_option]
  iintro ⟨HO, HB⟩
  iframe

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CIx => iprop(∃ κ : ℕ, cellInv ER (sched m) κ (kcell (c, i))))
          ∗ (bigSep Finset.univ fun i : CIx => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : CIx => semVal (kcell (c, i)) 0) ∗ bigSep Finset.univ fun i : CIx => roundState ER (sched m) (kcell (c, i)) 0)
      ⊢ (|={Set.univ}=> bigSep Finset.univ fun i : CIx => iprop(∃ κ : ℕ, cellInv ER (sched m) κ (kcell (c, i))) : sProp 𝕄) from by
        rw [← bigSep_sep']
        exact (bigSep_mono fun i _ => (Rounds.body_intro ER (sched m) (kcell (c, i))).trans inv_alloc).trans (bigSep_fupd _ _)) $$ [Hv Hst] with Hinv
  · isplitl [Hv] <;> iassumption
  imodintro
  iframe

theorem ghost_intro (c : Dev nD) : iprop(records m K ∗ linear c) ⊢ G' m c := by
  unfold G' ghost
  iintro H
  iexists K
  iexact H

theorem bigSep_deal {M : Type} [URA M] {J : Type} [Fintype J] (e : J → Dev nD → Dev nD) (he : ∀ j c, e j (e j c) = c)
    (Φ : Dev nD → J → sProp M) :
    (bigSep Finset.univ fun c : Dev nD => bigSep Finset.univ fun j : J => Φ c j)
      = bigSep Finset.univ fun c : Dev nD => bigSep Finset.univ fun j : J => Φ (e j c) j := by
  rw [← bigSep_univ_prod (fun cj : Dev nD × J => Φ cj.1 cj.2), ← bigSep_univ_prod (fun cj : Dev nD × J => Φ (e cj.2 cj.1) cj.2)]
  exact bigSep_univ_equiv (⟨fun cj => (e cj.2 cj.1, cj.2), fun cj => (e cj.2 cj.1, cj.2),
    fun cj => Prod.ext (he _ _) rfl, fun cj => Prod.ext (he _ _) rfl⟩ : Dev nD × J ≃ Dev nD × J) (fun cj => Φ cj.1 cj.2)

theorem own_split (c : Dev nD) (Φ : GSem nD τ sig → sProp 𝕄) :
    (bigSep Finset.univ fun bj : Bool × Fin 24 => Φ (kcell (c, some bj)))
      = iprop((bigSep Finset.univ fun j : Fin 24 => Φ (sendCell c j)) ∗ bigSep Finset.univ fun j : Fin 24 => Φ (recvCell c j)) :=
  bigSep_cells fun bj => Φ (kcell (c, some bj))

theorem toks_around : (bigSep Finset.univ fun c : Dev nD => (toks c : sProp 𝕄)) ⊢ bigSep Finset.univ fun c : Dev nD => payToks c := by
  have hB : (fun c : Dev nD => (toks c : sProp 𝕄)) = fun c => iprop((bigSep Finset.univ fun p : Fin 3 => dutyTok ER (barCell c) 0 p)
      ∗ (bigSep Finset.univ fun j : Fin 24 => dutyTok ER (sendCell c j) 0 (0 : Fin 3))
      ∗ bigSep Finset.univ fun j : Fin 24 => dutyTok ER (recvCell c j) 0 (0 : Fin 3)) :=
    funext fun c => by unfold toks; rw [own_split c (fun g => dutyTok ER g 0 (0 : Fin 3))]
  rw [hB]
  unfold payToks
  rw [bigSep_sep', bigSep_sep', bigSep_sep', bigSep_sep',
    bigSep_deal peer peer_peer (fun c p => (dutyTok ER (barCell c) 0 p : sProp 𝕄)),
    bigSep_deal (fun j => peer (phaseOf j)) (fun j => peer_peer (phaseOf j)) (fun c j => (dutyTok ER (recvCell c j) 0 (0 : Fin 3) : sProp 𝕄))]
  iintro ⟨HA, HS, HR⟩
  iframe

theorem regroup :
    (bigSep Finset.univ fun c : Dev nD => iprop((bigSep Finset.univ fun i : CIx => iprop(∃ κ : ℕ, cellInv ER (sched m) κ (kcell (c, i))))
          ∗ (bigSep Finset.univ fun i : CIx => iprop(atPos ER (kcell (c, i)) 0 ∅ 0 ∗ reached ER (kcell (c, i)) 0)) ∗ toks c) : sProp 𝕄)
      ⊢ bigSep Finset.univ (G' m) := by
  rw [bigSep_sep', bigSep_sep', ← bigSep_univ_prod (fun ck : Dev nD × CIx => iprop(∃ κ : ℕ, cellInv ER (sched m) κ (kcell ck))),
    bigSep_congr (s := Finset.univ) (fun (c : Dev nD) _ => bigSep_sep' Finset.univ (fun i : CIx => (atPos ER (kcell (c, i)) 0 ∅ 0 : sProp 𝕄)) (fun i => reached ER (kcell (c, i)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun i : CIx => (atPos ER (kcell (c, i)) 0 ∅ 0 : sProp 𝕄)) payToks).symm).trans
      (bigSep_mono fun c _ => show _ ⊢ linear c from Entails.of_eq (by unfold linear positions; rfl)))
    iframe

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (Levels.creds (F := F) c) $$ Hcr
  icases Hc with ⟨H3, HN⟩
  imodintro
  unfold start G'
  isplitl
  · iframe
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, H0, H1, H2⟩
  iframe

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratch
  iintro ⟨⟨H0, H1, H2⟩, Hz⟩
  isplitr; · iempintro
  iframe

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

theorem run_main (hbody : ∀ c : Dev nD, BodyObligation (dats (F := F) m ρ 0 c) (defs₀ (F := F)) 𝒱₀ () Set.univ) :
    θ_run defs (onTc (τ := τ) (main (F := F))) (Proto.s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := Levels.waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

theorem finalA_x (c : Dev nD) : finalA m ρ c (0 : Fin 2) = (Proto.s₀ m ρ).mem (win0_0.arr.view.loc (c : Thread nD τ)) :=
  (dats (F := F) m ρ 0 c).arrAt_in (0 : Fin 2) rfl _

theorem finalA_out (c : Dev nD) : finalA m ρ c (1 : Fin 2) = outAt m c := by
  have h := (dats (F := F) m ρ 0 c).arrAt_succ (1 : Fin 2) t0_0
  rw [flush0_1 t0_0, if_pos rfl] at h
  refine (show finalA m ρ c (1 : Fin 2) = (dats m ρ 0 c).arrAt (1 : Fin 2) (t0_0.val + 1) from rfl).trans (h.trans ?_)
  exact Memref.write_access_unit_zero_univ (Elt F) main_v1 (funext fun a => Nat.zero_mul _) _ _ (outAt m c)

end Cert.KernelIdeal.Launch

end
-- ==== Proof.Frames.lean ====
import proofs.«900728_g7700000000000729_dist_ar_v7x_xyz2x4x4_y_m256_n256_f32_1_alg».proof.Proof.Launch
import proofs.«900728_g7700000000000729_dist_ar_v7x_xyz2x4x4_y_m256_n256_f32_1_alg».proof.Proof.Gen.Kernel
import proofs.«900728_g7700000000000729_dist_ar_v7x_xyz2x4x4_y_m256_n256_f32_1_alg».proof.Proof.Gen.Pre_finite_inputs_Kernel
import proofs.«900728_g7700000000000729_dist_ar_v7x_xyz2x4x4_y_m256_n256_f32_1_alg».proof.Defs

noncomputable section

namespace Cert.KernelIdeal.Frames

open Cert.KernelIdeal Cert.KernelIdeal.Gen Cert.KernelIdeal.Mesh Cert.KernelIdeal.Proto Cert.KernelIdeal.Launch

open Idealize.ShloMosaic
open Idealize.ShloMosaic.TcCoe
open Idealize.SL Idealize.SL.Sem
open Idealize.ShloMosaic.Pipeline (BodyObligation)

variable {F : FTy → Type} [FloatOps F]

variable (m : (ℓ : Loc nD τ sig) → Buf (Elt F) ℓ) (ρ : Dev nD → PrngReg)

/-- Every run of the mesh ends with each device's result array at `outAt m c` and its argument array unchanged. -/
theorem run_vals (hbody : ∀ c : Dev nD, BodyObligation (dats (F := F) m ρ 0 c) (defs₀ (F := F)) 𝒱₀ () Set.univ) :
    θ_run (defs (F := F)) (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)) :=
  (θ_run defs _ _).mono (fun r h c => ⟨(h c 1).trans (finalA_out m ρ c), (h c 0).trans (finalA_x m ρ c)⟩) (run_main m ρ hbody)

/-- The frame: that run with the result's value dropped. -/
theorem frame (hbody : ∀ c : Dev nD, BodyObligation (dats (F := F) m ρ 0 c) (defs₀ (F := F)) 𝒱₀ () Set.univ) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_vals m ρ hbody)

/-- The word-level and the idealized program are one text: their body tables agree label by label. -/
theorem defs_eq : Cert.Kernel.defs (F := F) = defs (F := F) := by
  have h₀ : Cert.Kernel.defs₀ (F := F) = defs₀ (F := F) := by
    unfold Cert.Kernel.defs₀ defs₀
    refine congrArg Defs.onTc (funext fun l => funext fun a => ?_)
    match l, a with
    | ⟨0, _⟩, (t, s) => rfl
    | ⟨n + 1, h⟩, _ => exact absurd h (by omega)
  unfold Cert.Kernel.defs defs
  rw [h₀]
  rfl

end Cert.KernelIdeal.Frames

end
-- ==== Proof.RefSide.lean ====
import proofs.«900728_g7700000000000729_dist_ar_v7x_xyz2x4x4_y_m256_n256_f32_1_alg».proof.Defs
import proofs.«900728_g7700000000000729_dist_ar_v7x_xyz2x4x4_y_m256_n256_f32_1_alg».proof.Proof.Gen.ReferenceIdeal
import proofs.«900728_g7700000000000729_dist_ar_v7x_xyz2x4x4_y_m256_n256_f32_1_alg».proof.Proof.Gen.Pre_finite_inputs_ReferenceIdeal
import proofs.«900728_g7700000000000729_dist_ar_v7x_xyz2x4x4_y_m256_n256_f32_1_alg».proof.Proof.Gen.ReferenceIdeal.Run
import proofs.«900728_g7700000000000729_dist_ar_v7x_xyz2x4x4_y_m256_n256_f32_1_alg».proof.Proof.Gen.ReferenceIdeal.Read
import Idealize.ShloMosaic.Lib.ValueIdx
import Idealize.ShloMosaic.Lib.Pipeline.Value
import Idealize.ShloMosaic.PureOps.Ideal.Laws
import Idealize.ShloMosaic.Lib.StableHlo.Run
import Mathlib.Algebra.BigOperators.Fin

noncomputable section

namespace Cert.RefSide

open Idealize.ShloMosaic Idealize.SL.Sem Idealize.ShloMosaic.ValueIdx
open scoped BigOperators

theorem ref_frame :
    Cert.frame_ReferenceIdeal (hReferenceIdeal := Cert.ReferenceIdeal.Gen.facts)
      (hPre_finite_inputs_ReferenceIdeal := Cert.Pre_finite_inputs_ReferenceIdeal.Gen.facts) :=
  fun m ρ _ => (θ_run Cert.ReferenceIdeal.defs _ _).mono (fun _ h c => (h c).2)
    (Cert.ReferenceIdeal.Value.run (F := Ideal) m ρ)

def refOut
    (X : Buf (Elt Ideal) (((0 : Dev Cert.ReferenceIdeal.nD).tc : Thread Cert.ReferenceIdeal.nD Cert.ReferenceIdeal.τ).loc Cert.ReferenceIdeal.main_arg0)) :
    Buf (Elt Ideal) (((0 : Dev Cert.ReferenceIdeal.nD).tc : Thread Cert.ReferenceIdeal.nD Cert.ReferenceIdeal.τ).loc Cert.ReferenceIdeal.main_v1) :=
  Host.reduceAdd (F := Ideal)
    (shapeCast _ X Cert.ReferenceIdeal.Gen.shapeCasts_S1024x256_S4x256x256)
    (constant (F := Ideal) Cert.ReferenceIdeal.S_ .f32 0x00000000#32)
    Cert.ReferenceIdeal.Gen.reducesTo_S4x256x256_S256x256_d0 Cert.ReferenceIdeal.Gen.h_S_

theorem ref_run
    (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r =>
      r.2.mem (((0 : Dev Cert.ReferenceIdeal.nD).tc : Thread Cert.ReferenceIdeal.nD Cert.ReferenceIdeal.τ).loc Cert.ReferenceIdeal.main_v1) = refOut (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)) :=
  (θ_run Cert.ReferenceIdeal.defs _ _).mono (fun _ h => h 0) (Cert.ReferenceIdeal.Value.run (F := Ideal) m' ρ')

abbrev blkRow (k : Fin 4) (r : Fin 256) : Fin 1024 := ⟨k.val * 256 + r.val, by omega⟩

theorem relaid_idx (r col : Fin 256) (k : Fin 4) :
    Cert.ReferenceIdeal.Read.idx_main_v0 (Cert.ReferenceIdeal.Read.idx_main_v1 (ix2 r col) k) = ix2 (blkRow k r) col := by
  funext a
  refine Fin.ext ?_
  have hk := k.isLt
  have hr := r.isLt
  have hc := col.isLt
  match a with
  | ⟨0, _⟩ =>
    show ((k.val * 256 + r.val) * 256 + col.val) / 256 = k.val * 256 + r.val
    omega
  | ⟨1, _⟩ =>
    show ((k.val * 256 + r.val) * 256 + col.val) % 256 = col.val
    omega

theorem refOut_apply (X : FVec Ideal Cert.ReferenceIdeal.S1024x256 .f32) (r col : Fin 256) :
    @Eq EReal (refOut X (ix2 r col))
      (Ideal.ofBits .f32 0x00000000#32 + ∑ k : Fin 4, X (ix2 (blkRow k r) col)) := by
  show Cert.ReferenceIdeal.Read.val_main_v1 (F := Ideal) X (ix2 r col) = _
  rw [Cert.ReferenceIdeal.Read.val_main_v1_apply]
  refine congrArg₂ (· + ·) rfl (Finset.sum_congr rfl fun k _ => ?_)
  rw [Cert.ReferenceIdeal.Read.val_main_v0_apply, relaid_idx]

end Cert.RefSide

end
-- ==== Proof.Value.lean ====
import proofs.«900728_g7700000000000729_dist_ar_v7x_xyz2x4x4_y_m256_n256_f32_1_alg».proof.Proof.Proto
import proofs.«900728_g7700000000000729_dist_ar_v7x_xyz2x4x4_y_m256_n256_f32_1_alg».proof.Proof.Mesh
import proofs.«900728_g7700000000000729_dist_ar_v7x_xyz2x4x4_y_m256_n256_f32_1_alg».proof.Proof.RefSide
import proofs.«900728_g7700000000000729_dist_ar_v7x_xyz2x4x4_y_m256_n256_f32_1_alg».proof.Proof.Exit
import Idealize.ShloMosaic.Lib.ValueIdx
import Idealize.ShloMosaic.Lib.ValueLayout
import Idealize.ShloMosaic.Lib.Pipeline.Value
import Idealize.ShloMosaic.Lib.Writes
import Idealize.ShloMosaic.Lib.Layout
import Idealize.ShloMosaic.PureOps.Ideal.Laws

noncomputable section

namespace Cert.KernelIdeal.Value

open Cert.KernelIdeal Cert.KernelIdeal.Gen Cert.KernelIdeal.Mesh Cert.KernelIdeal.Proto
open Idealize.ShloMosaic Idealize.ShloMosaic.TcCoe Idealize.ShloMosaic.ValueIdx Idealize.SL.Sem
open scoped BigOperators

variable (m : (ℓ : Loc nD τ sig) → Buf (Elt Ideal) ℓ)

def A (d : Dev nD) (r col : Fin 256) : EReal :=
  (m ((d : Thread nD τ).loc main_arg0) : FVec Ideal S256x256 .f32) (ix2 r col)

def sum4 (d : Dev nD) (r col : Fin 256) : EReal :=
  (A m d r col + A m (peer 0 d) r col) + (A m (peer 1 d) r col + A m (peer 0 (peer 1 d)) r col)

theorem row_lt (c : Dev nD) (k : Fin 8) (i : Fin 16) : 128 * (c.val / 16) + 16 * k.val + i.val < 256 := by
  have := half_le c; have := k.isLt; have := i.isLt; omega

abbrev rowOf (c : Dev nD) (k : Fin 8) (i : Fin 16) : Fin 256 := ⟨128 * (c.val / 16) + 16 * k.val + i.val, row_lt c k i⟩

theorem rowRect_emb (c : Dev nD) (k : Fin 8) (i : Fin 16) (col : Fin 256) :
    (rowRect c k).emb (ix2 i col) = ix2 (rowOf c k i) col := by
  funext a
  refine Fin.ext ?_
  rw [Rect.emb_apply]
  match a with
  | ⟨0, _⟩ =>
    show (k0_off1 c (BitVec.ofNat 32 (16 * k.val))) 0 + 1 * i.val = 128 * (c.val / 16) + 16 * k.val + i.val
    rw [Gen.k0_off1_eq c k]; simp
  | ⟨1, _⟩ =>
    show (k0_off1 c (BitVec.ofNat 32 (16 * k.val))) 1 + 1 * col.val = col.val
    rw [Gen.k0_off1_eq c k]; simp

theorem rowRect2_emb (c : Dev nD) (k : Fin 8) (i : Fin 16) (col : Fin 256) :
    (rowRect2 c k).emb (ix2 i col) = ix2 (rowOf c k i) col := by
  funext a
  refine Fin.ext ?_
  rw [Rect.emb_apply]
  match a with
  | ⟨0, _⟩ =>
    show (k0_off2 c (BitVec.ofNat 32 (16 * k.val))) 0 + 1 * i.val = 128 * (c.val / 16) + 16 * k.val + i.val
    rw [Gen.k0_off2_eq c k]; simp
  | ⟨1, _⟩ =>
    show (k0_off2 c (BitVec.ofNat 32 (16 * k.val))) 1 + 1 * col.val = col.val
    rw [Gen.k0_off2_eq c k]; simp

theorem xsC_eq (c : Dev nD) : xsC (F := Ideal) m c = m ((c : Thread nD τ).loc main_arg0) := by
  unfold xsC
  funext x
  rw [View.read_apply]
  have hx : (win0_0.blk Gen.t0_0).view.emb x = x := by
    funext a
    refine Fin.ext ?_
    have h0 : ∀ a, win0_0.index Gen.t0_0 a = 0 := fun a => rfl
    show win0_0.index Gen.t0_0 a * win0_0.size a + 1 * (x a).val = (x a).val
    rw [h0 a]; omega
  rw [hx]; rfl

theorem xL_apply (c : Dev nD) (k : Fin 8) (i : Fin 16) (col : Fin 256) :
    @Eq EReal (xL (F := Ideal) m c k (ix2 i col)) (A m c (rowOf c k i) col) := by
  unfold xL A
  rw [View.readAt_apply, xsC_eq]
  show (m ((c : Thread nD τ).loc main_arg0)) ((rowRect2 c k).emb (ix2 i col)) = _
  rw [rowRect2_emb]

theorem r1L_cast (c : Dev nD) (k : Fin 8) :
    shapeCast S16x256 (r1L (F := Ideal) m c k) Gen.shapeCasts_S1x16x256_S16x256
      = (xSl (peer 0 c) k).view.read (Elt Ideal) (xsC m (peer 0 c)) := by
  unfold r1L
  rw [← Memref.read_squeeze_slice r1M (slotRect k) (fun _ => rfl) Gen.squeezes_S1x16x256_S16x256]
  unfold r1C
  exact View.read_write_univ _ _

theorem r1L_apply (c : Dev nD) (k : Fin 8) (i : Fin 16) (col : Fin 256) :
    @Eq EReal (shapeCast S16x256 (r1L (F := Ideal) m c k) Gen.shapeCasts_S1x16x256_S16x256 (ix2 i col))
      (A m (peer 0 c) (rowOf c k i) col) := by
  rw [r1L_cast, xsC_eq]
  unfold A
  rw [View.read_apply]
  show (m (((peer 0 c) : Thread nD τ).loc main_arg0)) ((rowRect (peer 0 c) k).emb (ix2 i col)) = _
  rw [rowRect_emb]
  have h : rowOf (peer 0 c) k i = rowOf c k i := Fin.ext (by show 128 * ((peer 0 c).val / 16) + _ + _ = _; rw [half_peer0])
  rw [h]

theorem sbL_eq (c : Dev nD) (k : Fin 8) : sbL (F := Ideal) m c k = sbPay (xL m c k) (r1L m c k) := by
  unfold sbL sbC
  rw [View.readAt_rect]
  exact View.read_write_univ _ _

theorem sbL_cast (c : Dev nD) (k : Fin 8) :
    shapeCast S16x256 (sbL (F := Ideal) m c k) Gen.shapeCasts_S1x16x256_S16x256
      = addf (xL m c k) (shapeCast S16x256 (r1L m c k) Gen.shapeCasts_S1x16x256_S16x256) := by
  rw [sbL_eq]
  unfold sbPay
  rw [shapeCast_shapeCast, shapeCast_self]

theorem sbL_apply (c : Dev nD) (k : Fin 8) (i : Fin 16) (col : Fin 256) :
    @Eq EReal (shapeCast S16x256 (sbL (F := Ideal) m c k) Gen.shapeCasts_S1x16x256_S16x256 (ix2 i col))
      (A m c (rowOf c k i) col + A m (peer 0 c) (rowOf c k i) col) := by
  rw [sbL_cast]
  show @HAdd.hAdd EReal EReal EReal _ (xL m c k (ix2 i col)) (shapeCast S16x256 (r1L m c k) Gen.shapeCasts_S1x16x256_S16x256 (ix2 i col)) = _
  rw [xL_apply, r1L_apply]

theorem r2L_cast (c : Dev nD) (k : Fin 8) :
    shapeCast S16x256 (r2L (F := Ideal) m c k) Gen.shapeCasts_S1x16x256_S16x256
      = shapeCast S16x256 (sbL m (peer 1 c) k) Gen.shapeCasts_S1x16x256_S16x256 := by
  unfold r2L
  rw [← Memref.read_squeeze_slice r2M (slotRect k) (fun _ => rfl) Gen.squeezes_S1x16x256_S16x256]
  unfold r2C
  rw [View.read_write_univ]
  exact Memref.read_squeeze_slice sbM (slotRect k) (fun _ => rfl)
    Gen.squeezes_S1x16x256_S16x256 Gen.shapeCasts_S1x16x256_S16x256 _

theorem oVal_apply (c : Dev nD) (k : Fin 8) (i : Fin 16) (col : Fin 256) :
    @Eq EReal (oVal (F := Ideal) m c k (ix2 i col)) (sum4 m c (rowOf c k i) col) := by
  unfold oVal outPay sum4
  show @HAdd.hAdd EReal EReal EReal _ (shapeCast S16x256 (sbL m c k) Gen.shapeCasts_S1x16x256_S16x256 (ix2 i col))
    (shapeCast S16x256 (r2L m c k) Gen.shapeCasts_S1x16x256_S16x256 (ix2 i col)) = _
  rw [r2L_cast, sbL_apply, sbL_apply]
  have h : rowOf (peer 1 c) k i = rowOf c k i := Fin.ext (by show 128 * ((peer 1 c).val / 16) + _ + _ = _; rw [half_peer1])
  rw [h]

theorem oPiece_apply (d : Dev nD) (k : Fin 8) (i : Fin 16) (col : Fin 256) :
    (oSl d k).view.read (Elt Ideal) (oC m d k) (ix2 i col) = oVal m d k (ix2 i col) := by
  have e : (oSl d k).view.emb (ix2 i col)
      = (oM.access (rowRect2 d k)).emb (ix2 i col) := by
    show (rowRect d k).emb (ix2 i col) = (rowRect2 d k).emb (ix2 i col)
    rw [rowRect_emb, rowRect2_emb]
  rw [View.read_apply, e]
  unfold oC
  rw [View.write_emb_of_mem _ _ (Finset.mem_univ _), cast_cast, cast_eq]

theorem row_half (c : Dev nD) (k : Fin 8) (i : Fin 16) : (rowOf c k i).val / 128 = c.val / 16 := by
  have := half_le c; have := k.isLt; have := i.isLt
  show (128 * (c.val / 16) + 16 * k.val + i.val) / 128 = c.val / 16
  omega

def Gat (c : Dev nD) (r col : Fin 256) : EReal :=
  sum4 m (if r.val / 128 = c.val / 16 then c else peer 2 c) r col

def G (c : Dev nD) : S256x256.Idx → Elt Ideal .f32 :=
  fun y => Gat m c ⟨(y 0).val, idx2_lt0 y⟩ ⟨(y 1).val, idx2_lt1 y⟩

theorem G_ix2 (c : Dev nD) (r col : Fin 256) : G m c (ix2 r col) = Gat m c r col := rfl

theorem outPieces_G (c : Dev nD) :
    ∀ p ∈ outPieces (F := Ideal) m c, ∀ x : p.1.shape.Idx, p.2 x = G m c (p.1.emb x) := by
  intro p hp x
  unfold outPieces at hp
  rcases List.mem_append.mp hp with hp | hp
  · obtain ⟨k, -, rfl⟩ := List.mem_map.mp hp
    obtain ⟨i, col, rfl⟩ : ∃ (i : Fin 16) (col : Fin 256), x = ix2 i col := ⟨x 0, x 1, eq_ix2 x⟩
    show oVal m c k (ix2 i col) = G m c ((rowRect2 c k).emb (ix2 i col))
    rw [rowRect2_emb, G_ix2]
    unfold Gat
    rw [if_pos (row_half c k i)]
    exact oVal_apply m c k i col
  · obtain ⟨k, -, rfl⟩ := List.mem_map.mp hp
    obtain ⟨i, col, rfl⟩ : ∃ (i : Fin 16) (col : Fin 256), x = ix2 i col := ⟨x 0, x 1, eq_ix2 x⟩
    show (oSl (peer 2 c) k).view.read (Elt Ideal) (oC m (peer 2 c) k) (ix2 i col) = G m c ((rowRect (peer 2 c) k).emb (ix2 i col))
    rw [rowRect_emb, G_ix2, oPiece_apply]
    unfold Gat
    have hne : ¬ (rowOf (peer 2 c) k i).val / 128 = c.val / 16 := by
      rw [row_half, half_peer2]; have := half_le c; omega
    rw [if_neg hne]
    exact oVal_apply m (peer 2 c) k i col

theorem outPieces_cover (c : Dev nD) (r col : Fin 256) :
    ∃ p ∈ outPieces (F := Ideal) m c, ix2 r col ∈ p.1.set := by
  obtain ⟨p, hp, hi⟩ := Exit.piece_of_idx m c (ix2 r col)
  exact ⟨p, hp, by rwa [View.set_slice_whole] at hi⟩

theorem outAt_G (c : Dev nD) (r col : Fin 256) : outAt (F := Ideal) m c (ix2 r col) = G m c (ix2 r col) := by
  unfold outAt
  exact View.read_writes_apply_of_pieces oM.view _ (G m c) (outPieces m c)
    (outPieces_G m c) (ix2 r col) (outPieces_cover m c r col)

theorem outAt_apply (c : Dev nD) (r col : Fin 256) :
    @Eq EReal (outAt (F := Ideal) m c (ix2 r col)) (sum4 m (if r.val / 128 = c.val / 16 then c else peer 2 c) r col) :=
  outAt_G m c r col

theorem yOf_cases : ∀ d : Dev nD,
    (yOf d = 0 ∧ yOf (peer 0 d) = 1 ∧ yOf (peer 1 d) = 2 ∧ yOf (peer 0 (peer 1 d)) = 3) ∨
    (yOf d = 1 ∧ yOf (peer 0 d) = 0 ∧ yOf (peer 1 d) = 3 ∧ yOf (peer 0 (peer 1 d)) = 2) ∨
    (yOf d = 2 ∧ yOf (peer 0 d) = 3 ∧ yOf (peer 1 d) = 0 ∧ yOf (peer 0 (peer 1 d)) = 1) ∨
    (yOf d = 3 ∧ yOf (peer 0 d) = 2 ∧ yOf (peer 1 d) = 1 ∧ yOf (peer 0 (peer 1 d)) = 0) := by
  decide +kernel

section Ref

variable (m' : (ℓ : Loc Cert.ReferenceIdeal.nD Cert.ReferenceIdeal.τ Cert.ReferenceIdeal.sig) → Buf (Elt Ideal) ℓ)
variable (hagree : ∀ c : Dev Cert.KernelIdeal.nD,
  m ((c.tc : Thread Cert.KernelIdeal.nD Cert.KernelIdeal.τ).loc Cert.KernelIdeal.main_arg0) = Layout.blockN ⟨2, ![256, 256]⟩ ⟨2, ![1024, 256]⟩ (Layout.meshBlock [2, 4, 4] ![[1], []] c) (m' (((0 : Dev Cert.ReferenceIdeal.nD).tc : Thread Cert.ReferenceIdeal.nD Cert.ReferenceIdeal.τ).loc Cert.ReferenceIdeal.main_arg0)))

def Xr (j : Fin 4) (r col : Fin 256) : EReal :=
  (m' (((0 : Dev Cert.ReferenceIdeal.nD).tc : Thread Cert.ReferenceIdeal.nD Cert.ReferenceIdeal.τ).loc Cert.ReferenceIdeal.main_arg0) : FVec Ideal Cert.ReferenceIdeal.S1024x256 .f32) (ix2 (Cert.RefSide.blkRow j r) col)

include hagree in

theorem A_eq (d : Dev nD) (r col : Fin 256) : A m d r col = Xr m' (yOf d) r col := by
  unfold A Xr
  rw [hagree d, Layout.blockN_apply]
  refine congrArg _ (funext fun a => Fin.ext ?_)
  match a with
  | ⟨0, _⟩ => exact (meshBlock_idx_val (by decide) d (ix2 r col)).1
  | ⟨1, _⟩ => exact (meshBlock_idx_val (by decide) d (ix2 r col)).2

include hagree in

theorem sum4_eq_ref (d : Dev nD) (r col : Fin 256) :
    @Eq EReal (sum4 m d r col) (Cert.RefSide.refOut (m' (((0 : Dev Cert.ReferenceIdeal.nD).tc : Thread Cert.ReferenceIdeal.nD Cert.ReferenceIdeal.τ).loc Cert.ReferenceIdeal.main_arg0)) (ix2 r col)) := by
  unfold sum4
  rw [A_eq m m' hagree d, A_eq m m' hagree (peer 0 d), A_eq m m' hagree (peer 1 d), A_eq m m' hagree (peer 0 (peer 1 d)),
    Cert.RefSide.refOut_apply, Ideal.ofBits_zero_f32, zero_add, Fin.sum_univ_four]
  show _ = Xr m' 0 r col + Xr m' 1 r col + Xr m' 2 r col + Xr m' 3 r col
  rcases yOf_cases d with ⟨h0, h1, h2, h3⟩ | ⟨h0, h1, h2, h3⟩ | ⟨h0, h1, h2, h3⟩ | ⟨h0, h1, h2, h3⟩ <;>
    rw [h0, h1, h2, h3] <;> ac_rfl

end Ref

theorem outAt_eq_ref
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.blockN ⟨2, ![256, 256]⟩ ⟨2, ![1024, 256]⟩ (Layout.meshBlock [2, 4, 4] ![[1], []] c) (m' (((0 : Dev Cert.ReferenceIdeal.nD).tc : Thread Cert.ReferenceIdeal.nD Cert.ReferenceIdeal.τ).loc Cert.ReferenceIdeal.main_arg0)))
    (c : Dev Cert.KernelIdeal.nD) :
    outAt (F := Ideal) m c = Cert.RefSide.refOut (m' (((0 : Dev Cert.ReferenceIdeal.nD).tc : Thread Cert.ReferenceIdeal.nD Cert.ReferenceIdeal.τ).loc Cert.ReferenceIdeal.main_arg0)) := by
  funext y
  obtain ⟨r, col, rfl⟩ : ∃ (r : Fin 256) (col : Fin 256), y = ix2 r col := ⟨y 0, y 1, eq_ix2 y⟩
  exact (outAt_apply m c r col).trans (sum4_eq_ref m m' hagree _ r col)

end Cert.KernelIdeal.Value

end
-- ==== Proof.lean ====
/- Every device ends with the sum of the four row blocks of x along y, which the reference computes from the whole array:
   addition on the extended reals is commutative and associative. One body proof, at a symbolic device and for every float
   instance, serves both kernel programs, which are one text. -/
import proofs.«900728_g7700000000000729_dist_ar_v7x_xyz2x4x4_y_m256_n256_f32_1_alg».proof.Defs
import proofs.«900728_g7700000000000729_dist_ar_v7x_xyz2x4x4_y_m256_n256_f32_1_alg».proof.Proof.Gen.Kernel
import proofs.«900728_g7700000000000729_dist_ar_v7x_xyz2x4x4_y_m256_n256_f32_1_alg».proof.Proof.Gen.KernelIdeal
import proofs.«900728_g7700000000000729_dist_ar_v7x_xyz2x4x4_y_m256_n256_f32_1_alg».proof.Proof.Gen.ReferenceIdeal
import proofs.«900728_g7700000000000729_dist_ar_v7x_xyz2x4x4_y_m256_n256_f32_1_alg».proof.Proof.Gen.Pre_finite_inputs_Kernel
import proofs.«900728_g7700000000000729_dist_ar_v7x_xyz2x4x4_y_m256_n256_f32_1_alg».proof.Proof.Gen.Pre_finite_inputs_ReferenceIdeal
import proofs.«900728_g7700000000000729_dist_ar_v7x_xyz2x4x4_y_m256_n256_f32_1_alg».proof.Proof.Body
import proofs.«900728_g7700000000000729_dist_ar_v7x_xyz2x4x4_y_m256_n256_f32_1_alg».proof.Proof.Frames
import proofs.«900728_g7700000000000729_dist_ar_v7x_xyz2x4x4_y_m256_n256_f32_1_alg».proof.Proof.Value
import proofs.«900728_g7700000000000729_dist_ar_v7x_xyz2x4x4_y_m256_n256_f32_1_alg».proof.Proof.RefSide

noncomputable section

namespace Cert.Proof

open Idealize.ShloMosaic Idealize.SL.Sem Cert.KernelIdeal

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  fun m ρ _ => by rw [Frames.defs_eq]; exact Frames.frame (F := Bits) m ρ (Body.body_obligation m ρ),
  fun m ρ _ => Frames.frame (F := Ideal) m ρ (Body.body_obligation m ρ),
  Cert.RefSide.ref_frame,
  trivial,
  fun m ρ m' ρ' _ hagree => ⟨Cert.RefSide.refOut (m' _),
    (θ_run (defs (F := Ideal)) _ _).mono (fun _ h c => ⟨(h c).1.trans (Value.outAt_eq_ref m m' hagree c), (h c).2⟩)
      (Frames.run_vals (F := Ideal) m ρ (Body.body_obligation m ρ)),
    Cert.RefSide.ref_run m' ρ'⟩⟩

end Cert.Proof

end
